-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S8192x512 : Shape := ⟨2, ![8192, 512]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v8 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v8 main_v17
  main_v18

def fn {F : FTy → Type} [FloatOps F] (main_arg0 : FVec F S8192x32000 .f32) (main_arg1 : IVec S8192 32) (main_arg2 : FVec F S8192x512 .f32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_v4 : FVec F S8192x512 .f32 := Host.absf main_arg2
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 32000#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 32 := constantI S_ 32 4294967196#32
  let main_v14 : IVec S8192 32 := broadcastInDim S8192 ![] bcast_S_S8192 main_c_4
  let main_v15 : IVec S8192 1 := cmpi .eq main_arg1 main_v14
  let main_v16 : IVec S8192 1 := ori main_v13 main_v15
  fn_part1 (F := F) main_v8 main_v16
-- ==== Kernel.lean ====
abbrev S8192x32000 : Shape := ⟨2, ![8192, 32000]⟩
abbrev S8192 : Shape := ⟨1, ![8192]⟩
abbrev S8192x512 : Shape := ⟨2, ![8192, 512]⟩
abbrev S8192x1 : Shape := ⟨2, ![8192, 1]⟩
abbrev S1024x1280 : Shape := ⟨2, ![1024, 1280]⟩
abbrev S1024x1 : Shape := ⟨2, ![1024, 1]⟩
abbrev S1024 : Shape := ⟨1, ![1024]⟩
abbrev S_ : Shape := ⟨0, ![]⟩
abbrev S1x8192 : Shape := ⟨2, ![1, 8192]⟩
abbrev S1x1 : Shape := ⟨2, ![1, 1]⟩
abbrev S1024x512 : Shape := ⟨2, ![1024, 512]⟩
abbrev S1x1024 : Shape := ⟨2, ![1, 1024]⟩
abbrev S512x1024 : Shape := ⟨2, ![512, 1024]⟩
abbrev S1024x1024 : Shape := ⟨2, ![1024, 1024]⟩
abbrev S1 : Shape := ⟨1, ![1]⟩

abbrev nBuf : Space → Nat
  | .hbm => 32
  | .vmem => 19
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x512, .f32⟩
  | .hbm, ⟨3, _⟩ => ⟨S8192x1, .i32⟩
  | .hbm, ⟨4, _⟩ => ⟨S8192x1, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S1x8192, .f32⟩
  | .hbm, ⟨27, _⟩ => ⟨S8192x512, .bf16⟩
  | .hbm, ⟨28, _⟩ => ⟨S1x1, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1024x1280, .f32⟩
  | .local _ .vmem, ⟨1, _⟩ => ⟨S1024x1280, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x1, .f32⟩
  | .local _ .vmem, ⟨14, _⟩ => ⟨S1024x1, .f32⟩
  | .local _ .vmem, ⟨15, _⟩ => ⟨S1x1024, .f32⟩
  | .local _ .vmem, ⟨16, _⟩ => ⟨S1x1024, .f32⟩
  | .local _ .vmem, ⟨17, _⟩ => ⟨S1x1, .f32⟩
  | .local _ .vmem, ⟨18, _⟩ => ⟨S1x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v41 : BitVec 1 := Scalar.cmpi .eq arg1 c24_i32
  let v42 : BitVec 32 := Scalar.extui v41
  let c0_i32_19 : BitVec 32 := 0#32
  let v43 : BitVec 1 := Scalar.cmpi .ne v42 c0_i32_19
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v47 : BitVec 1 := Scalar.cmpi .eq arg0 c7_i32
  let arg1 : BitVec 32 := BitVec.ofNat 32 (i 1).val
  let c7_i32_23 : BitVec 32 := 7#32
  let v48 : BitVec 1 := Scalar.cmpi .eq arg1 c7_i32_23
  let v49 : BitVec 1 := Scalar.andi v47 v48
  let v50 : BitVec 32 := Scalar.extui v49
  let c0_i32_24 : BitVec 32 := 0#32
  let v51 : BitVec 1 := Scalar.cmpi .ne v50 c0_i32_24
  v51

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

class Facts₀ : Prop where
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1280_S1024x1280_0_0 : ∀ a, (![0, 0] : Fin 2 → Nat) a + S1024x1280.size a ≤ S1024x1280.size a
  h_S1024x1280 : 0 < S1024x1280.numel
  reduces_S1024x1280_S1024 : S1024x1280.Reduces [1] S1024
  shapeCasts_S1024_S1024x1 : S1024.ShapeCasts S1024x1
  broadcasts_S1024x1_S1024x1280 : S1024x1.Broadcasts S1024x1280
  iota_S1024x1280_d1_w32 : S1024x1280.Iotas .tc 32 [1]
  bcast_S_S8192 : S_.BroadcastsInDim S8192 (![] : Fin 0 → Fin S8192.rank)
  natLt_1_32 : 1 < 32
  reducesTo_S8192_S_d0 : S8192.ReducesTo [0] S_
  h_S_ : 0 < S_.numel
  shapeCasts_S8192x1_S8192 : S8192x1.ShapeCasts S8192
  reducesTo_S8192x512_S8192_d1 : S8192x512.ReducesTo [1] S8192
  shapeCasts_S8192_S1x8192 : S8192.ShapeCasts S1x8192
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S8192x32000.size a
  hwx0_0 : ∀ i : grid0.Coords, EltTy.bits .f32 = 32 ∨ (Rect.block (s := S8192x32000) S1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v16) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S8192x512 : Shape := ⟨2, ![8192, 512]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 109
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x32000, .f32⟩
  | .hbm, ⟨10, _⟩ => ⟨S8192x32000, .f32⟩
  | .hbm, ⟨11, _⟩ => ⟨S8192x32000, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S8192x32000, .f32⟩
  | .hbm, ⟨17, _⟩ => ⟨S8192x32000, .f32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S_, .i32⟩
  | .hbm, ⟨28, _⟩ => ⟨S8192x1, .i32⟩
  | .hbm, ⟨29, _⟩ => ⟨S8192x1, .i1⟩
  | .hbm, ⟨30, _⟩ => ⟨S_, .i32⟩
  | .hbm, ⟨31, _⟩ => ⟨S8192x1, .i32⟩
  | .hbm, ⟨32, _⟩ => ⟨S8192x1, .i32⟩
  | .hbm, ⟨33, _⟩ => ⟨S8192x1, .i32⟩
  | .hbm, ⟨34, _⟩ => ⟨S8192x1x1, .i32⟩
  | .hbm, ⟨35, _⟩ => ⟨S1, .i32⟩
  | .hbm, ⟨36, _⟩ => ⟨S_, .i32⟩
  | .hbm, ⟨37, _⟩ => ⟨S8192x1x1, .i32⟩
  | .hbm, ⟨38, _⟩ => ⟨S8192x1x1, .i1⟩
  | .hbm, ⟨39, _⟩ => ⟨S1x1x1, .i32⟩
  | .hbm, ⟨40, _⟩ => ⟨S8192x1x1, .i32⟩
  | .hbm, ⟨41, _⟩ => ⟨S8192x1x1, .i1⟩
  | .hbm, ⟨42, _⟩ => ⟨S8192x1x1, .i1⟩
  | .hbm, ⟨43, _⟩ => ⟨S_, .i1⟩
  | .hbm, ⟨44, _⟩ => ⟨S8192x1, .i1⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192, .f32⟩
  | .hbm, ⟨50, _⟩ => ⟨S8192, .f32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S8192, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192x512, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S1x8192, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S512x8192, .f32⟩
  | .hbm, ⟨76, _⟩ => ⟨S8192x8192, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S_, .f32⟩
  | .hbm, ⟨85, _⟩ => ⟨S8192x8192, .f32⟩
  | .hbm, ⟨86, _⟩ => ⟨S8192x8192, .i1⟩
  | .hbm, ⟨87, _⟩ => ⟨S_, .f32⟩
  | .hbm, ⟨88, _⟩ => ⟨S_, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S8192x8192, .f32⟩
  | .hbm, ⟨94, _⟩ => ⟨S8192x8192, .i1⟩
  | .hbm, ⟨95, _⟩ => ⟨S_, .f32⟩
  | .hbm, ⟨96, _⟩ => ⟨S_, .f32⟩
  | .hbm, ⟨97, _⟩ => ⟨S8192x8192, .f32⟩
  | .hbm, ⟨98, _⟩ => ⟨S8192x8192, .f32⟩
  | .hbm, ⟨99, _⟩ => ⟨S8192x8192, .f32⟩
  | .hbm, ⟨100, _⟩ => ⟨S_, .f32⟩
  | .hbm, ⟨101, _⟩ => ⟨S8192x8192, .f32⟩
  | .hbm, ⟨102, _⟩ => ⟨S8192x8192, .f32⟩
  | .hbm, ⟨103, _⟩ => ⟨S8192x8192, .f32⟩
  | .hbm, ⟨104, _⟩ => ⟨S8192x8192, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_c : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v1 : Ref sig .tc := ⟨.hbm, 25, rfl⟩
abbrev main_v2 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_c_1 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_c_2 : Ref sig .tc := ⟨.hbm, 55, rfl⟩
abbrev main_v9 : Ref sig .tc := ⟨.hbm, 56, rfl⟩
abbrev main_c_3 : Ref sig .tc := ⟨.hbm, 57, rfl⟩
abbrev main_v10 : Ref sig .tc := ⟨.hbm, 58, rfl⟩
abbrev main_cst : Ref sig .tc := ⟨.hbm, 59, rfl⟩
abbrev main_call3_v0 : Ref sig .tc := ⟨.hbm, 60, rfl⟩
abbrev main_call3_v1 : Ref sig .tc := ⟨.hbm, 61, rfl⟩
abbrev main_v11 : Ref sig .tc := ⟨.hbm, 62, rfl⟩
abbrev main_cst_4 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_cst_5 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_cst_6 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_cst_7 : Ref sig .tc := ⟨.hbm, 81, rfl⟩
abbrev main_v27 : Ref sig .tc := ⟨.hbm, 82, rfl⟩
abbrev main_v28 : Ref sig .tc := ⟨.hbm, 83, rfl⟩
abbrev main_cst_8 : Ref sig .tc := ⟨.hbm, 84, rfl⟩
abbrev main_v29 : Ref sig .tc := ⟨.hbm, 85, rfl⟩
abbrev main_v30 : Ref sig .tc := ⟨.hbm, 86, rfl⟩
abbrev main_cst_9 : Ref sig .tc := ⟨.hbm, 87, rfl⟩
abbrev main_call4_v0 : Ref sig .tc := ⟨.hbm, 88, rfl⟩
abbrev main_call4_v1 : Ref sig .tc := ⟨.hbm, 89, rfl⟩
abbrev main_v31 : Ref sig .tc := ⟨.hbm, 90, rfl⟩
abbrev main_v32 : Ref sig .tc := ⟨.hbm, 91, rfl⟩
abbrev main_cst_10 : Ref sig .tc := ⟨.hbm, 92, rfl⟩
abbrev main_v33 : Ref sig .tc := ⟨.hbm, 93, rfl⟩
abbrev main_v34 : Ref sig .tc := ⟨.hbm, 94, rfl⟩
abbrev main_cst_11 : Ref sig .tc := ⟨.hbm, 95, rfl⟩
abbrev main_call5_v0 : Ref sig .tc := ⟨.hbm, 96, rfl⟩
abbrev main_call5_v1 : Ref sig .tc := ⟨.hbm, 97, rfl⟩
abbrev main_v35 : Ref sig .tc := ⟨.hbm, 98, rfl⟩
abbrev main_v36 : Ref sig .tc := ⟨.hbm, 99, rfl⟩
abbrev main_cst_12 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_cst_13 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  natLt_1_32 : 1 < 32
  reducesTo_S8192_S_d0 : S8192.ReducesTo [0] S_
  reducesTo_S8192x512_S8192_d1 : S8192x512.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  gather_S8192x32000_S8192x1x1_S8192x1_n_1_0_0_1_2_11_wf : GatherDims.WF S8192x32000 S8192x1x1 S8192x1 [] [1] [0] [1] [0] 2 ![1, 1]
  dot_S8192x512_S512x8192_S8192x8192_1_0_0_1_n_n_wf : DotDims.WF S8192x512 S512x8192 S8192x8192 [1] [0] [0] [1] [] []

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.CeRun.lean ====
/- One grid point of the cross-entropy body: m' = max(m, max x), l' = l exp(m - m') + sum exp(x - m'), t' = t + sum of x at the label's column. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Ce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def mNew (x : Vec F S1024x1280 .f32) (m0 : Vec F S1024x1 .f32) : Vec F S1024x1 .f32 := k0_pay8 x m0

def lNew (x : Vec F S1024x1280 .f32) (m0 l0 : Vec F S1024x1 .f32) : Vec F S1024x1 .f32 := k0_pay7 x m0 l0

def tNew (i : grid0.Coords) (x : Vec F S1024x1280 .f32) (lab : Vec F S1024x1 .i32) (t0 : Vec F S1024x1 .f32) : Vec F S1024x1 .f32 :=
  k0_pay1 (k0_pay9 i x lab) t0

def nllBlk (i : grid0.Coords) (x : Vec F S1024x1280 .f32) (lab : Vec F S1024x1 .i32) (m0 l0 t0 : Vec F S1024x1 .f32) : Vec F S1024x1 .f32 :=
  k0_pay2 (mNew x m0) (lNew x m0 l0) (tNew i x lab t0)

private theorem hz2 : (![0, 0] : Fin 2 → Nat) = fun _ => 0 := by
  funext a; fin_cases a <;> rfl

private theorem read_store {S : Shape} {e : EltTy} (v : View sig .tc .vmem S e) (f : v.ty.Contents (Elt F))
    (off : Fin S.rank → Nat) (hoff : off = fun _ => 0) (inb : ∀ a, off a + S.size a ≤ S.size a) (w : Vec F S e)
    (L : List (View.Piece (Elt F) S e)) :
    v.read (Elt F) (v.writes (Elt F) f (⟨Rect.unit off S.size inb, w⟩ :: L)) = w := by
  rw [View.read_writes_eq_canon _ _ _
    (fun y => ⟨⟨Rect.unit off S.size inb, w⟩, List.mem_cons_self .., View.mem_set_unit_zero hoff inb y⟩)]
  exact View.canon_cons_unit_zero hoff inb w L

private theorem readAt_whole {S : Shape} {e : EltTy} (a : Memref sig .tc .vmem S e) (h : a.IsWhole) (X : Vec F S e)
    (off : Fin S.rank → Nat) (hoff : off = fun _ => 0) (inb : ∀ a, off a + S.size a ≤ S.size a) :
    View.readAt (Elt F) a.view (Rect.unit off S.size inb).toLoadRect (h.unread X) = X := by
  rw [View.readAt_eq_ld, h.read_unread]; exact View.ld_unit_zero hoff inb X

private theorem readCov_store {S : Shape} {e : EltTy} (v : View sig .tc .vmem S e)
    (off : Fin S.rank → Nat) (hoff : off = fun _ => 0) (inb : ∀ a, off a + S.size a ≤ S.size a) (w : Vec F S e) :
    v.readCov [(⟨Rect.unit off S.size inb, w⟩ : View.Piece (Elt F) S e)] (Rect.unit off S.size inb).toLoadRect = w :=
  View.readCov_unit_zero v hoff inb w

theorem cond1_iff : ∀ j : Fin 25,
    (Scalar.cmpi .ne (Scalar.extui (Scalar.cmpi .eq (BitVec.ofNat 32 j.val) 0#32)) 0#32 = 1#1) ↔ j.val = 0 := by
  decide

theorem cond2_iff (i : grid0.Coords) : k0_cond2 i = 1#1 ↔ (i 1).val = 24 := by
  have h : ∀ j : Fin 25,
      (Scalar.cmpi .ne (Scalar.extui (Scalar.cmpi .eq (BitVec.ofNat 32 j.val) 24#32)) 0#32 = 1#1) ↔ j.val = 24 := by decide
  exact h (i 1)

variable (c : Dev nD) (E : Set ℕ) (i : grid0.Coords)
    (a2 : Memref sig .tc .vmem S1024x1280 .f32) (h2 : a2.IsWhole) (a3 : Memref sig .tc .vmem S1024x1 .i32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1 .f32) (h7 : a7.IsWhole)
    (x : Vec F S1024x1280 .f32) (lab : Vec F S1024x1 .i32) (d4 m0 l0 t0 : Vec F S1024x1 .f32) (K : PUnit → sProp (MT nD τ sig Unit (Elt F) ℕ (UR sig nD τ) ℕ))

/-- The body's triple: logits and labels kept, the output left at `out`, the accumulators at `m`, `l`, `t`. -/
abbrev Triple (out m l t : Vec F S1024x1 .f32) : Prop :=
    iprop(owns (c : Thread nD τ) a2 fullShare x ∗ owns (c : Thread nD τ) a3 fullShare lab ∗ owns (c : Thread nD τ) a4 fullShare d4
        ∗ owns (c : Thread nD τ) a5 fullShare m0 ∗ owns (c : Thread nD τ) a6 fullShare l0 ∗ owns (c : Thread nD τ) a7 fullShare t0
        ∗ (iprop(owns (c : Thread nD τ) a2 fullShare x ∗ owns (c : Thread nD τ) a3 fullShare lab ∗ owns (c : Thread nD τ) a4 fullShare out
            ∗ owns (c : Thread nD τ) a5 fullShare m ∗ owns (c : Thread nD τ) a6 fullShare l
            ∗ owns (c : Thread nD τ) a7 fullShare t) -∗ K ⟨⟩))
      ⊢ wp frame (wpE (defs₀ (F := F)) Variants.none c none) E (cc0__ce_kernel i a2 h2 a3 h3 a4 h4 a5 h5 a6 h6 a7 h7) K

theorem run_first (hj : (i 1).val = 0) :
    Triple c E i a2 h2 a3 h3 a4 h4 a5 h5 a6 h6 a7 h7 x lab d4 m0 l0 t0 K d4 (mNew x (k0_pay3 (F := F))) (lNew x (k0_pay3 (F := F)) (k0_pay4 (F := F))) (tNew i x lab (k0_pay5 (F := F))) := by
  unfold Triple
  have hc1 : Scalar.cmpi .ne (Scalar.extui (Scalar.cmpi .eq (BitVec.ofNat 32 (i 1).val) 0#32)) 0#32 = 1#1 := (cond1_iff (i 1)).2 hj
  have hc2 : ¬ (k0_cond2 i = 1#1) := fun h => by have h' := (cond2_iff i).1 h; omega
  simp only [cc0__ce_kernel_eq_skeleton]; unfold cc0__ce_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc1 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    sl_unfold_words
    refine (read_store _ _ _ hz2 _ _ _).trans ?_
    rw [readAt_whole a2 h2 x _ hz2, readCov_store a5.view _ hz2]; rfl
  isplitl [H6]
  · iexists _; isplitr
    swap; · iexact H6
    ipureintro
    sl_unfold_words
    refine (read_store _ _ _ hz2 _ _ _).trans ?_
    rw [readAt_whole a2 h2 x _ hz2, readCov_store a5.view _ hz2, readCov_store a6.view _ hz2]; rfl
  iexists _; isplitr
  swap; · iexact H7
  ipureintro
  sl_unfold_words
  refine (read_store _ _ _ hz2 _ _ _).trans ?_
  dsimp only
  rw [readAt_whole a2 h2 x _ hz2, readAt_whole a3 h3 lab _ hz2, readCov_store a7.view _ hz2]; rfl

theorem run_mid (hj0 : (i 1).val ≠ 0) (hj24 : (i 1).val ≠ 24) :
    Triple c E i a2 h2 a3 h3 a4 h4 a5 h5 a6 h6 a7 h7 x lab d4 m0 l0 t0 K d4 (mNew x m0) (lNew x m0 l0) (tNew i x lab t0) := by
  unfold Triple
  have hc1 : ¬ (Scalar.cmpi .ne (Scalar.extui (Scalar.cmpi .eq (BitVec.ofNat 32 (i 1).val) 0#32)) 0#32 = 1#1) := fun h => hj0 ((cond1_iff (i 1)).1 h)
  have hc2 : ¬ (k0_cond2 i = 1#1) := fun h => hj24 ((cond2_iff i).1 h)
  simp only [cc0__ce_kernel_eq_skeleton]; unfold cc0__ce_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc1 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    refine (read_store _ _ _ hz2 _ _ _).trans ?_
    rw [readAt_whole a2 h2 x _ hz2, readAt_whole a5 h5 m0 _ hz2]; rfl
  isplitl [H6]
  · iexists _; isplitr
    swap; · iexact H6
    ipureintro
    refine (read_store _ _ _ hz2 _ _ _).trans ?_
    rw [readAt_whole a2 h2 x _ hz2, readAt_whole a5 h5 m0 _ hz2, readAt_whole a6 h6 l0 _ hz2]; rfl
  iexists _; isplitr
  swap; · iexact H7
  ipureintro
  refine (read_store _ _ _ hz2 _ _ _).trans ?_
  dsimp only
  rw [readAt_whole a2 h2 x _ hz2, readAt_whole a3 h3 lab _ hz2, readAt_whole a7 h7 t0 _ hz2]; rfl

theorem run_last (hj : (i 1).val = 24) :
    Triple c E i a2 h2 a3 h3 a4 h4 a5 h5 a6 h6 a7 h7 x lab d4 m0 l0 t0 K (nllBlk i x lab m0 l0 t0) (mNew x m0) (lNew x m0 l0) (tNew i x lab t0) := by
  unfold Triple
  have hc1 : ¬ (Scalar.cmpi .ne (Scalar.extui (Scalar.cmpi .eq (BitVec.ofNat 32 (i 1).val) 0#32)) 0#32 = 1#1) := fun h => by have h' := (cond1_iff (i 1)).1 h; omega
  have hc2 : k0_cond2 i = 1#1 := (cond2_iff i).2 hj
  simp only [cc0__ce_kernel_eq_skeleton]; unfold cc0__ce_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc1 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    sl_unfold_words
    refine (read_store _ _ _ hz2 _ _ _).trans ?_
    dsimp only
    rw [readCov_store a5.view _ hz2, readCov_store a6.view _ hz2, readCov_store a7.view _ hz2,
      readAt_whole a2 h2 x _ hz2, readAt_whole a3 h3 lab _ hz2, readAt_whole a5 h5 m0 _ hz2,
      readAt_whole a6 h6 l0 _ hz2, readAt_whole a7 h7 t0 _ hz2]; rfl
  isplitl [H5]
  · iexists _; isplitr
    swap; · iexact H5
    ipureintro
    sl_unfold_words
    refine (read_store _ _ _ hz2 _ _ _).trans ?_
    rw [readAt_whole a2 h2 x _ hz2, readAt_whole a5 h5 m0 _ hz2]; rfl
  isplitl [H6]
  · iexists _; isplitr
    swap; · iexact H6
    ipureintro
    sl_unfold_words
    refine (read_store _ _ _ hz2 _ _ _).trans ?_
    rw [readAt_whole a2 h2 x _ hz2, readAt_whole a5 h5 m0 _ hz2, readAt_whole a6 h6 l0 _ hz2]; rfl
  iexists _; isplitr
  swap; · iexact H7
  ipureintro
  sl_unfold_words
  refine (read_store _ _ _ hz2 _ _ _).trans ?_
  dsimp only
  rw [readAt_whole a2 h2 x _ hz2, readAt_whole a3 h3 lab _ hz2, readAt_whole a7 h7 t0 _ hz2]; rfl

end Cert.KernelIdeal.Ce

end
-- ==== Proof.CeData.lean ====
/- The three accumulators after each grid point, as a recursion that restarts at every first column block. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.CeRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Ce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xblk (c : Dev nD) (t : Fin cfg0.N) : Vec F S1024x1280 .f32 := iblk0 V c 0 t
abbrev lblk (c : Dev nD) (t : Fin cfg0.N) : Vec F S1024x1 .i32 := iblk0 V c 1 t

def rowOf (t : Fin cfg0.N) (p : Fin 1024) : Fin 8192 :=
  ⟨1024 * (t.val / 25) + p.val, by have := t.isLt; have := p.isLt; have h : cfg0.N = 200 := N_0; omega⟩
def colOf (t : Fin cfg0.N) (k : Fin 1280) : Fin 32000 :=
  ⟨1280 * (t.val % 25) + k.val, by have := k.isLt; have := Nat.mod_lt t.val (show 0 < 25 by decide); omega⟩

def lastOf (r : Fin 8192) : Fin cfg0.N :=
  ⟨25 * (r.val / 1024) + 24, by have := r.isLt; have h : cfg0.N = 200 := N_0; omega⟩

abbrev St (F : FTy → Type) [FloatOps F] : Type := Vec F S1024x1 .f32 × Vec F S1024x1 .f32 × Vec F S1024x1 .f32

def stInit : St F := (k0_pay3 (F := F), k0_pay4 (F := F), k0_pay5 (F := F))

def stStep (c : Dev nD) (t : Fin cfg0.N) (s : St F) : St F :=
  (mNew (xblk V c t) s.1, lNew (xblk V c t) s.1 s.2.1, tNew (grid0.coords t) (xblk V c t) (lblk V c t) s.2.2)

def stAt (c : Dev nD) : (n : ℕ) → n < cfg0.N → St F
  | 0, hn => stStep V c ⟨0, hn⟩ stInit
  | n + 1, hn => stStep V c ⟨n + 1, hn⟩ (if (n + 1) % 25 = 0 then stInit else stAt c n (Nat.lt_of_succ_lt hn))

def stFound (c : Dev nD) (t : Fin cfg0.N) : St F :=
  if h : t.val % 25 = 0 then stInit else stAt V c (t.val - 1) (Nat.lt_of_le_of_lt (Nat.sub_le _ _) t.isLt)

theorem stAt_eq (c : Dev nD) (t : Fin cfg0.N) : stAt V c t.val t.isLt = stStep V c t (stFound V c t) := by
  obtain ⟨n, hn⟩ := t
  cases n with
  | zero => simp only [stAt, stFound]; rfl
  | succ n =>
    simp only [stAt, stFound]
    by_cases h : (n + 1) % 25 = 0
    · rw [if_pos h, dif_pos h]
    · rw [if_neg h, dif_neg h]; rfl

def outAt (c : Dev nD) (t : Fin cfg0.N) : Vec F S1024x1 .f32 :=
  nllBlk (grid0.coords t) (xblk V c t) (lblk V c t) (stFound V c t).1 (stFound V c t).2.1 (stFound V c t).2.2

abbrev scr0 : Memref sig .tc .vmem S1024x1 .f32 := Memref.whole cc0_scratch0
abbrev scr1 : Memref sig .tc .vmem S1024x1 .f32 := Memref.whole cc0_scratch1
abbrev scr2 : Memref sig .tc .vmem S1024x1 .f32 := Memref.whole cc0_scratch2

def others0 (c : Dev nD) : sProp 𝕄 :=
  iprop((∃ d, owns (c : Thread nD τ) (Memref.whole cc1_stg0_0 : Memref sig .tc .vmem S1024x512 .bf16) fullShare d)
    ∗ (∃ d, owns (c : Thread nD τ) (Memref.whole cc1_stg0_1 : Memref sig .tc .vmem S1024x512 .bf16) fullShare d)
    ∗ (∃ d, owns (c : Thread nD τ) (Memref.whole cc1_stg1_0 : Memref sig .tc .vmem S1024x512 .bf16) fullShare d)
    ∗ (∃ d, owns (c : Thread nD τ) (Memref.whole cc1_stg1_1 : Memref sig .tc .vmem S1024x512 .bf16) fullShare d)
    ∗ (∃ d, owns (c : Thread nD τ) (Memref.whole cc1_stg2_0 : Memref sig .tc .vmem S1024x1 .f32) fullShare d)
    ∗ (∃ d, owns (c : Thread nD τ) (Memref.whole cc1_stg2_1 : Memref sig .tc .vmem S1024x1 .f32) fullShare d)
    ∗ (∃ d, owns (c : Thread nD τ) (Memref.whole cc1_stg3_0 : Memref sig .tc .vmem S1x1024 .f32) fullShare d)
    ∗ (∃ d, owns (c : Thread nD τ) (Memref.whole cc1_stg3_1 : Memref sig .tc .vmem S1x1024 .f32) fullShare d)
    ∗ (∃ d, owns (c : Thread nD τ) (Memref.whole cc1_stg4_0 : Memref sig .tc .vmem S1x1 .f32) fullShare d)
    ∗ (∃ d, owns (c : Thread nD τ) (Memref.whole cc1_scratch0 : Memref sig .tc .vmem S1x1 .f32) fullShare d))

theorem PhiA_eq (c : Dev nD) :
    (Pipeline.ΦA spec0 c : sProp 𝕄)
      = iprop(((∃ d, owns (c : Thread nD τ) scr0 fullShare d) ∗ (∃ d, owns (c : Thread nD τ) scr1 fullShare d)
          ∗ (∃ d, owns (c : Thread nD τ) scr2 fullShare d) ∗ others0 c) ∗ (∃ r, prngReg c r)) := by
  unfold Pipeline.ΦA others0; rw [scopedRest0_eq]; simp only [owns_whole]; try rfl

def PhiC (c : Dev nD) : (n : ℕ) → n ≤ cfg0.N → sProp 𝕄
  | 0, _ => Pipeline.ΦA spec0 c
  | n + 1, hn => iprop((owns (c : Thread nD τ) scr0 fullShare (stAt V c n hn).1 ∗ owns (c : Thread nD τ) scr1 fullShare (stAt V c n hn).2.1
      ∗ owns (c : Thread nD τ) scr2 fullShare (stAt V c n hn).2.2 ∗ others0 c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt V c t
  Φ t := PhiC V c t.val (Nat.le_of_lt_succ t.isLt)
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt V c t := by dsimp only [dat0]

end Cert.KernelIdeal.Ce

end
-- ==== Proof.PenRun.lean ====
/- One tile of the penalty body: acc' = acc + the sum over the tile of exp(-dist)^2. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Pen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def simTile (qi qj : Vec F S1024x512 .bf16) (sr : Vec F S1024x1 .f32) (sc : Vec F S1x1024 .f32) : Vec F S1024x1024 .f32 :=
  k1_pay3 qi qj sr sc

def accNew (qi qj : Vec F S1024x512 .bf16) (sr : Vec F S1024x1 .f32) (sc : Vec F S1x1024 .f32) (acc0 : Vec F S1x1 .f32) : Vec F S1x1 .f32 :=
  k1_pay1 (simTile qi qj sr sc) acc0

theorem hz : (![0, 0] : Fin 2 → Nat) = fun _ => 0 := funext fun a => by fin_cases a <;> rfl

abbrev condFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

abbrev condLast (i : grid1.Coords) : Prop := k1_cond2 i = 1#1

theorem condFirst_iff (i : grid1.Coords) : condFirst i ↔ ((i 0).val = 0 ∧ (i 1).val = 0) := by
  have h : ∀ a b : Fin 8, ((Scalar.cmpi .ne (Scalar.extui (Scalar.andi (Scalar.cmpi .eq (BitVec.ofNat 32 a.val) 0#32) (Scalar.cmpi .eq (BitVec.ofNat 32 b.val) 0#32))) 0#32) = 1#1)
      ↔ (a.val = 0 ∧ b.val = 0) := by decide +kernel
  exact h (i 0) (i 1)

theorem condLast_iff (i : grid1.Coords) : condLast i ↔ ((i 0).val = 7 ∧ (i 1).val = 7) := by
  have h : ∀ a b : Fin 8, ((Scalar.cmpi .ne (Scalar.extui (Scalar.andi (Scalar.cmpi .eq (BitVec.ofNat 32 a.val) 7#32) (Scalar.cmpi .eq (BitVec.ofNat 32 b.val) 7#32))) 0#32) = 1#1)
      ↔ (a.val = 7 ∧ b.val = 7) := by decide +kernel
  exact h (i 0) (i 1)

variable (c : Dev nD) (E : Set ℕ) (i : grid1.Coords)
    (a2 : Memref sig .tc .vmem S1024x512 .bf16) (h2 : a2.IsWhole) (a3 : Memref sig .tc .vmem S1024x512 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (qi qj : Vec F S1024x512 .bf16) (sr : Vec F S1024x1 .f32) (sc : Vec F S1x1024 .f32) (d6 acc0 : Vec F S1x1 .f32) (K : PUnit → sProp (MT nD τ sig Unit (Elt F) ℕ (UR sig nD τ) ℕ))

/-- The body's triple: the four inputs kept, the output left at `out`, the accumulator at `acc`. -/
abbrev Triple (out acc : Vec F S1x1 .f32) : Prop :=
    iprop(owns (c : Thread nD τ) a2 fullShare qi ∗ owns (c : Thread nD τ) a3 fullShare qj ∗ owns (c : Thread nD τ) a4 fullShare sr
        ∗ owns (c : Thread nD τ) a5 fullShare sc ∗ owns (c : Thread nD τ) a6 fullShare d6 ∗ owns (c : Thread nD τ) a7 fullShare acc0
        ∗ (iprop(owns (c : Thread nD τ) a2 fullShare qi ∗ owns (c : Thread nD τ) a3 fullShare qj ∗ owns (c : Thread nD τ) a4 fullShare sr
            ∗ owns (c : Thread nD τ) a5 fullShare sc ∗ owns (c : Thread nD τ) a6 fullShare out ∗ owns (c : Thread nD τ) a7 fullShare acc) -∗ K ⟨⟩))
      ⊢ wp frame (wpE (defs₀ (F := F)) Variants.none c none) E (cc1__penalty_kernel i a2 h2 a3 h3 a4 h4 a5 h5 a6 h6 a7 h7) K

set_option maxHeartbeats 1000000 in
theorem run_first (hi : (i 0).val = 0) (hj : (i 1).val = 0) :
    Triple c E i a2 h2 a3 h3 a4 h4 a5 h5 a6 h6 a7 h7 qi qj sr sc d6 acc0 K d6 (accNew qi qj sr sc (k1_pay2 (F := F))) := by
  unfold Triple
  have hc0 : condFirst i := (condFirst_iff i).2 ⟨hi, hj⟩
  have hc1 : ¬condLast i := fun h => by have := ((condLast_iff i).1 h).1; omega
  simp only [cc1__penalty_kernel_eq_skeleton]; unfold cc1__penalty_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | sl_exact hc0 | sl_exact hc1)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr
  swap; · iexact H7
  ipureintro
  rw [View.read_writes_eq_canon _ _ _ (fun y => ⟨_, List.mem_cons_self, View.mem_set_unit_zero hz inb_S1x1_S1x1_0_0 y⟩), View.canon_cons_unit_zero hz]
  sl_unfold_words
  rw [View.readCov_unit_zero (S := S1x1) _ hz]
  unfold accNew simTile
  simp only [View.readAt_eq_ld, h2.read_unread, h3.read_unread, h4.read_unread, h5.read_unread, h7.read_unread, View.ld_unit_zero (S := S1024x512) hz, View.ld_unit_zero (S := S1024x1) hz, View.ld_unit_zero (S := S1x1024) hz, View.ld_unit_zero (S := S1x1) hz]

set_option maxHeartbeats 1000000 in
theorem run_mid (hfirst : ¬((i 0).val = 0 ∧ (i 1).val = 0)) (hlast : ¬((i 0).val = 7 ∧ (i 1).val = 7)) :
    Triple c E i a2 h2 a3 h3 a4 h4 a5 h5 a6 h6 a7 h7 qi qj sr sc d6 acc0 K d6 (accNew qi qj sr sc acc0) := by
  unfold Triple
  have hc0 : ¬condFirst i := fun h => hfirst ((condFirst_iff i).1 h)
  have hc1 : ¬condLast i := fun h => hlast ((condLast_iff i).1 h)
  simp only [cc1__penalty_kernel_eq_skeleton]; unfold cc1__penalty_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | sl_exact hc0 | sl_exact hc1)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr
  swap; · iexact H7
  ipureintro
  rw [View.read_writes_eq_canon _ _ _ (fun y => ⟨_, List.mem_singleton_self _, View.mem_set_unit_zero hz inb_S1x1_S1x1_0_0 y⟩), View.canon_unit_zero hz]
  sl_unfold_words
  unfold accNew simTile
  simp only [View.readAt_eq_ld, h2.read_unread, h3.read_unread, h4.read_unread, h5.read_unread, h7.read_unread, View.ld_unit_zero (S := S1024x512) hz, View.ld_unit_zero (S := S1024x1) hz, View.ld_unit_zero (S := S1x1024) hz, View.ld_unit_zero (S := S1x1) hz]

set_option maxHeartbeats 1000000 in
theorem run_last (hi : (i 0).val = 7) (hj : (i 1).val = 7) :
    Triple c E i a2 h2 a3 h3 a4 h4 a5 h5 a6 h6 a7 h7 qi qj sr sc d6 acc0 K (accNew qi qj sr sc acc0) (accNew qi qj sr sc acc0) := by
  unfold Triple
  have hc0 : ¬condFirst i := fun h => by have := ((condFirst_iff i).1 h).1; omega
  have hc1 : condLast i := (condLast_iff i).2 ⟨hi, hj⟩
  simp only [cc1__penalty_kernel_eq_skeleton]; unfold cc1__penalty_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | sl_exact hc0 | sl_exact hc1)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    rw [View.read_writes_eq_canon _ _ _ (fun y => ⟨_, List.mem_singleton_self _, View.mem_set_unit_zero hz inb_S1x1_S1x1_0_0 y⟩), View.canon_unit_zero hz]
    sl_unfold_words
    rw [View.readCov_unit_zero (S := S1x1) _ hz]
    unfold accNew simTile
    simp only [View.readAt_eq_ld, h2.read_unread, h3.read_unread, h4.read_unread, h5.read_unread, h7.read_unread, View.ld_unit_zero (S := S1024x512) hz, View.ld_unit_zero (S := S1024x1) hz, View.ld_unit_zero (S := S1x1024) hz, View.ld_unit_zero (S := S1x1) hz]
  iexists _; isplitr
  swap; · iexact H7
  ipureintro
  sl_unfold_words
  rw [View.read_writes_eq_canon _ _ _ (fun y => ⟨_, List.mem_singleton_self _, View.mem_set_unit_zero hz inb_S1x1_S1x1_0_0 y⟩), View.canon_unit_zero hz]
  unfold accNew simTile
  simp only [View.readAt_eq_ld, h2.read_unread, h3.read_unread, h4.read_unread, h5.read_unread, h7.read_unread, View.ld_unit_zero (S := S1024x512) hz, View.ld_unit_zero (S := S1024x1) hz, View.ld_unit_zero (S := S1x1024) hz, View.ld_unit_zero (S := S1x1) hz]

end Cert.KernelIdeal.Pen

end
-- ==== Proof.PenData.lean ====
/- The accumulator after each tile, as a recursion on the tile's number. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.PenRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev qiBlk (c : Dev nD) (t : Fin cfg1.N) : Vec F S1024x512 .bf16 := iblk1 V c 0 t
abbrev qjBlk (c : Dev nD) (t : Fin cfg1.N) : Vec F S1024x512 .bf16 := iblk1 V c 1 t
abbrev srBlk (c : Dev nD) (t : Fin cfg1.N) : Vec F S1024x1 .f32 := iblk1 V c 2 t
abbrev scBlk (c : Dev nD) (t : Fin cfg1.N) : Vec F S1x1024 .f32 := iblk1 V c 3 t

def rowI (t : Fin cfg1.N) (a : Fin 1024) : Fin 8192 :=
  ⟨1024 * (t.val / 8) + a.val, by have := t.isLt; have := a.isLt; have h : cfg1.N = 64 := N_1; omega⟩
def rowJ (t : Fin cfg1.N) (b : Fin 1024) : Fin 8192 :=
  ⟨1024 * (t.val % 8) + b.val, by have := b.isLt; have := Nat.mod_lt t.val (show 0 < 8 by decide); omega⟩

def lastPt : Fin cfg1.N := ⟨63, by have h : cfg1.N = 64 := N_1; omega⟩

def accAt (c : Dev nD) : (n : ℕ) → n < cfg1.N → Vec F S1x1 .f32
  | 0, hn => accNew (qiBlk V c ⟨0, hn⟩) (qjBlk V c ⟨0, hn⟩) (srBlk V c ⟨0, hn⟩) (scBlk V c ⟨0, hn⟩) (k1_pay2 (F := F))
  | n + 1, hn => accNew (qiBlk V c ⟨n + 1, hn⟩) (qjBlk V c ⟨n + 1, hn⟩) (srBlk V c ⟨n + 1, hn⟩) (scBlk V c ⟨n + 1, hn⟩)
      (accAt c n (Nat.lt_of_succ_lt hn))

def accFound (c : Dev nD) (t : Fin cfg1.N) : Vec F S1x1 .f32 :=
  if h : t.val = 0 then k1_pay2 (F := F) else accAt V c (t.val - 1) (Nat.lt_of_le_of_lt (Nat.sub_le _ _) t.isLt)

theorem accAt_eq (c : Dev nD) (t : Fin cfg1.N) :
    accAt V c t.val t.isLt = accNew (qiBlk V c t) (qjBlk V c t) (srBlk V c t) (scBlk V c t) (accFound V c t) := by
  obtain ⟨n, hn⟩ := t
  cases n with
  | zero => simp only [accAt, accFound]; rfl
  | succ n => simp only [accAt, accFound]; rw [dif_neg (Nat.succ_ne_zero n)]; rfl

abbrev accM : Memref sig .tc .vmem S1x1 .f32 := Memref.whole cc1_scratch0

def others1 (c : Dev nD) (S : sProp 𝕄) : sProp 𝕄 :=
  iprop((∃ d, owns (c : Thread nD τ) (Memref.whole cc0_stg0_0 : Memref sig .tc .vmem S1024x1280 .f32) fullShare d)
    ∗ (∃ d, owns (c : Thread nD τ) (Memref.whole cc0_stg0_1 : Memref sig .tc .vmem S1024x1280 .f32) fullShare d)
    ∗ (∃ d, owns (c : Thread nD τ) (Memref.whole cc0_stg1_0 : Memref sig .tc .vmem S1024x1 .i32) fullShare d)
    ∗ (∃ d, owns (c : Thread nD τ) (Memref.whole cc0_stg1_1 : Memref sig .tc .vmem S1024x1 .i32) fullShare d)
    ∗ (∃ d, owns (c : Thread nD τ) (Memref.whole cc0_stg2_0 : Memref sig .tc .vmem S1024x1 .f32) fullShare d)
    ∗ (∃ d, owns (c : Thread nD τ) (Memref.whole cc0_stg2_1 : Memref sig .tc .vmem S1024x1 .f32) fullShare d)
    ∗ (∃ d, owns (c : Thread nD τ) (Memref.whole cc0_scratch0 : Memref sig .tc .vmem S1024x1 .f32) fullShare d)
    ∗ (∃ d, owns (c : Thread nD τ) (Memref.whole cc0_scratch1 : Memref sig .tc .vmem S1024x1 .f32) fullShare d)
    ∗ (∃ d, owns (c : Thread nD τ) (Memref.whole cc0_scratch2 : Memref sig .tc .vmem S1024x1 .f32) fullShare d)
    ∗ S)

theorem PhiA_eq (c : Dev nD) :
    (Pipeline.ΦA spec1 c : sProp 𝕄)
      = iprop(others1 c (iprop(∃ d, owns (c : Thread nD τ) accM fullShare d)) ∗ (∃ r, prngReg c r)) := by
  unfold Pipeline.ΦA others1; rw [scopedRest1_eq]; simp only [owns_whole]; try rfl

def PhiP (c : Dev nD) : (n : ℕ) → n ≤ cfg1.N → sProp 𝕄
  | 0, _ => Pipeline.ΦA spec1 c
  | n + 1, hn => iprop(others1 c (owns (c : Thread nD τ) accM fullShare (accAt V c n hn)) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAt V c t.val t.isLt
  Φ t := PhiP V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = accAt V c t.val t.isLt := by dsimp only [dat1]

end Cert.KernelIdeal.Pen

end
-- ==== Proof.KW.lean ====
/- The values of @main's intermediate arrays as functions of the arguments; the arguments themselves are never rewritten. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.Gen.KernelIdeal.Regions
import proofs.«410698_j38302518346315_1_alg».proof.Proof.CeData
import proofs.«410698_j38302518346315_1_alg».proof.Proof.PenData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
abbrev R1 : (c : Dev nD) → (b : Ref sig .tc) → Buf (Elt F) ((c : Thread nD τ).loc b) := fun c b => W1 m c b

def out1 (c : Dev nD) : Buf (Elt F) ((c : Thread nD τ).loc main_v1) := (Ce.dat0 (R1 m) c).arrAt 2 cfg0.N

abbrev W2 : Dev nD → Valuation τ sig (Elt F) := fun c => Function.update (W1 m c) main_v1 (out1 m c)
abbrev R2 : (c : Dev nD) → (b : Ref sig .tc) → Buf (Elt F) ((c : Thread nD τ).loc b) := fun c b => W2 m c b

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev R5 : (c : Dev nD) → (b : Ref sig .tc) → Buf (Elt F) ((c : Thread nD τ).loc b) := fun c b => W5 m c b

def out17 (c : Dev nD) : Buf (Elt F) ((c : Thread nD τ).loc main_v17) := (Pen.dat1 (R5 m) c).arrAt 4 cfg1.N

abbrev W6 : Dev nD → Valuation τ sig (Elt F) := fun c => Function.update (W5 m c) main_v17 (out17 m c)
abbrev R6 : (c : Dev nD) → (b : Ref sig .tc) → Buf (Elt F) ((c : Thread nD τ).loc b) := fun c b => W6 m c b

abbrev W7 : Dev nD → Valuation τ sig (Elt F) := fun c => StableHlo.after hostOps2 (W6 m c)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v1) : W2 m c r = W1 m c r := by
  simp only [W2, Function.update_of_ne (StableHlo.devRef_ne_of_ne h : (Proc.devRef .tc r : DevRef τ sig) ≠ Proc.devRef .tc main_v1)]
theorem W2_v1 (c : Dev nD) : W2 m c main_v1 = out1 m c := by simp only [W2, Function.update_self]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ∉ hostOps1_2_W) : W5 m c r = W4 m c r :=
  StableHlo.after_of_writes_sub hostOps1_2 _ hostOps1_2_writes h
theorem W6_of (c : Dev nD) (r : Ref sig .tc) (h : r ≠ main_v17) : W6 m c r = W5 m c r := by
  simp only [W6, Function.update_of_ne (StableHlo.devRef_ne_of_ne h : (Proc.devRef .tc r : DevRef τ sig) ≠ Proc.devRef .tc main_v17)]
theorem W6_v17 (c : Dev nD) : W6 m c main_v17 = out17 m c := by simp only [W6, Function.update_self]
theorem W7_of (c : Dev nD) (r : Ref sig .tc) (h : r ∉ hostOps2_W) : W7 m c r = W6 m c r :=
  StableHlo.after_of_writes_sub hostOps2 _ hostOps2_writes h

theorem W7_arg (c : Dev nD) (r : Ref sig .tc) (h0 : r ∉ hostOps0_W) (h1 : r ≠ main_v1) (h2 : r ∉ hostOps1_W) (h3 : r ∉ hostOps1_1_W)
    (h4 : r ∉ hostOps1_2_W) (h5 : r ≠ main_v17) (h6 : r ∉ hostOps2_W) : W7 m c r = m ((c : Thread nD τ).loc r) :=
  (W7_of m c r h6).trans <| (W6_of m c r h5).trans <| (W5_of m c r h4).trans <| (W4_of m c r h3).trans <| (W3_of m c r h2).trans <|
    (W2_of m c r h1).trans <| (W1_of m c r h0).trans rfl
theorem W7_main_arg0 (c : Dev nD) : W7 m c main_arg0 = m ((c : Thread nD τ).loc main_arg0) :=
  W7_arg m c main_arg0 (by decide) (by decide) (by decide) (by decide) (by decide) (by decide) (by decide)
theorem W7_main_arg1 (c : Dev nD) : W7 m c main_arg1 = m ((c : Thread nD τ).loc main_arg1) :=
  W7_arg m c main_arg1 (by decide) (by decide) (by decide) (by decide) (by decide) (by decide) (by decide)
theorem W7_main_arg2 (c : Dev nD) : W7 m c main_arg2 = m ((c : Thread nD τ).loc main_arg2) :=
  W7_arg m c main_arg2 (by decide) (by decide) (by decide) (by decide) (by decide) (by decide) (by decide)

abbrev adm' : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm' p) c
  | ⟨0, _⟩ => fun c => Ce.dat0 (R1 m) c
  | ⟨1, _⟩ => fun c => Pen.dat1 (R5 m) c
abbrev 𝒱₀ : Variants := Variants.none
abbrev L : GSem nD τ sig → Finset Unit := fun _ => ∅
abbrev lv : GSem nD τ sig → Unit → ℕ := fun _ _ => 0

abbrev Rest (c : Dev nD) : sProp 𝕄 := iprop((∃ r, prngReg c r) ∗ ∃ W, owes (c : Thread nD τ) (0 : CellTallies nD τ sig Unit) W)

end Cert.KernelIdeal.Run

end
-- ==== Proof.CeBody.lean ====
/- Every grid point takes the cross-entropy region's invariant before it to the invariant after it. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.CeData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Ce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem coord1_eq : ∀ t : Fin cfg0.N, (grid0.coords t 1).val = t.val % 25 :=
  (by decide +kernel : ∀ t : Fin grid0.N, (grid0.coords t 1).val = t.val % 25)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, t.val % 25 ≠ 24 → cfg0.idle 2 (grid0.coords t) = true := by decide +kernel
theorem liveAt0_2 : ∀ t : Fin cfg0.N, t.val % 25 = 24 → cfg0.idle 2 (grid0.coords t) = false := by decide +kernel

theorem noFlush0_2 (t : Fin cfg0.N) (h : t.val % 25 ≠ 24) : (cfg0.win 2).flush t = false :=
  Bool.eq_false_iff.2 fun hf => h ((flush0_2 t).1 hf)

theorem PhiC_zero (c : Dev nD) (n : ℕ) (h : n ≤ cfg0.N) (hz : n = 0) : PhiC V c n h = Pipeline.ΦA spec0 c := by
  subst hz; rfl

theorem PhiC_succ (c : Dev nD) (n : ℕ) (hn : n < cfg0.N) :
    PhiC V c (n + 1) hn = iprop((owns (c : Thread nD τ) scr0 fullShare (stAt V c n hn).1 ∗ owns (c : Thread nD τ) scr1 fullShare (stAt V c n hn).2.1
      ∗ owns (c : Thread nD τ) scr2 fullShare (stAt V c n hn).2.2 ∗ others0 c) ∗ (∃ r, prngReg c r)) := rfl

theorem PhiC_pos (c : Dev nD) (n : ℕ) (h : n ≤ cfg0.N) (hz : n ≠ 0) :
    PhiC V c n h = iprop((owns (c : Thread nD τ) scr0 fullShare (stAt V c (n - 1) (by omega)).1 ∗ owns (c : Thread nD τ) scr1 fullShare (stAt V c (n - 1) (by omega)).2.1
      ∗ owns (c : Thread nD τ) scr2 fullShare (stAt V c (n - 1) (by omega)).2.2 ∗ others0 c) ∗ (∃ r, prngReg c r)) := by
  cases n with
  | zero => exact absurd rfl hz
  | succ n => rfl

theorem PhiC_castSucc (c : Dev nD) (t : Fin cfg0.N) :
    (dat0 V c).Φ t.castSucc = PhiC V c t.val (Nat.le_of_lt t.isLt) := by
  dsimp only [dat0]; simp only [Fin.coe_castSucc]

theorem stFound_first (c : Dev nD) (t : Fin cfg0.N) (h : t.val % 25 = 0) : stFound V c t = stInit := dif_pos h
theorem stFound_later (c : Dev nD) (t : Fin cfg0.N) (h : ¬t.val % 25 = 0) :
    stFound V c t = stAt V c (t.val - 1) (Nat.lt_of_le_of_lt (Nat.sub_le _ _) t.isLt) := dif_neg h

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiC V c (t.val + 1) t.isLt from rfl, PhiC_succ, stAt_eq]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  unfold stStep; dsimp only
  have hN : t.val < 200 := lt_of_lt_of_eq t.isLt N_0
  by_cases h0 : t.val % 25 = 0
  · have hj : (grid0.coords t 1).val = 0 := (coord1_eq t).trans h0
    have h24 : t.val % 25 ≠ 24 := by omega
    rw [Dat.leavesExact_idle (dat0 V c) 2 t (idleAt0_2 t h24) (noFlush0_2 t h24)]
    rw [stFound_first V c t h0]
    unfold stInit; dsimp only
    by_cases hz : t.val = 0
    · rw [PhiC_castSucc V c t, PhiC_zero V c _ _ hz, PhiA_eq]
      iintro ⟨⟨⟨⟨%m0, HS0⟩, ⟨%l0, HS1⟩, ⟨%t0, HS2⟩, Hoth⟩, Hg⟩, Ho, ⟨%d0, H0⟩, ⟨%d1, H1⟩, ⟨%d2, H2⟩⟩
      iapply (run_first c Set.univ (grid0.coords t) _ _ _ _ _ _ _ _ _ _ _ _ (xblk V c t) (lblk V c t) _ m0 l0 t0 _ hj)
      iframe H0 H1 H2 HS0 HS1 HS2
      iintro ⟨H0, H1, H2, HS0, HS1, HS2⟩
      iframe HS0 HS1 HS2 Hoth Hg Ho H0 H1
      iexists _; iexact H2
    · rw [PhiC_castSucc V c t, PhiC_pos V c _ _ hz]
      iintro ⟨⟨⟨HS0, HS1, HS2, Hoth⟩, Hg⟩, Ho, ⟨%d0, H0⟩, ⟨%d1, H1⟩, ⟨%d2, H2⟩⟩
      iapply (run_first c Set.univ (grid0.coords t) _ _ _ _ _ _ _ _ _ _ _ _ (xblk V c t) (lblk V c t) _ _ _ _ _ hj)
      iframe H0 H1 H2 HS0 HS1 HS2
      iintro ⟨H0, H1, H2, HS0, HS1, HS2⟩
      iframe HS0 HS1 HS2 Hoth Hg Ho H0 H1
      iexists _; iexact H2
  · have hz : t.val ≠ 0 := fun e => h0 (by rw [e])
    have hj0 : (grid0.coords t 1).val ≠ 0 := fun e => h0 ((coord1_eq t).symm.trans e)
    rw [PhiC_castSucc V c t, PhiC_pos V c _ _ hz, stFound_later V c t h0]
    by_cases h24 : t.val % 25 = 24
    · have hj : (grid0.coords t 1).val = 24 := (coord1_eq t).trans h24
      rw [show (dat0 V c).leavesExact 2 t = owns (c : Thread nD τ) (st0_2 t) fullShare ((dat0 V c).after 2 t) from by
        unfold Dat.leavesExact; rw [liveAt0_2 t h24], after0_2]
      unfold outAt; rw [stFound_later V c t h0]
      iintro ⟨⟨⟨HS0, HS1, HS2, Hoth⟩, Hg⟩, Ho, ⟨%d0, H0⟩, ⟨%d1, H1⟩, ⟨%d2, H2⟩⟩
      iapply (run_last c Set.univ (grid0.coords t) _ _ _ _ _ _ _ _ _ _ _ _ (xblk V c t) (lblk V c t) _ _ _ _ _ hj)
      iframe H0 H1 H2 HS0 HS1 HS2
      iintro ⟨H0, H1, H2, HS0, HS1, HS2⟩
      iframe HS0 HS1 HS2 Hoth Hg Ho H0 H1
      iexact H2
    · have hj24 : (grid0.coords t 1).val ≠ 24 := fun e => h24 ((coord1_eq t).symm.trans e)
      rw [Dat.leavesExact_idle (dat0 V c) 2 t (idleAt0_2 t h24) (noFlush0_2 t h24)]
      iintro ⟨⟨⟨HS0, HS1, HS2, Hoth⟩, Hg⟩, Ho, ⟨%d0, H0⟩, ⟨%d1, H1⟩, ⟨%d2, H2⟩⟩
      iapply (run_mid c Set.univ (grid0.coords t) _ _ _ _ _ _ _ _ _ _ _ _ (xblk V c t) (lblk V c t) _ _ _ _ _ hj0 hj24)
      iframe H0 H1 H2 HS0 HS1 HS2
      iintro ⟨H0, H1, H2, HS0, HS1, HS2⟩
      iframe HS0 HS1 HS2 Hoth Hg Ho H0 H1
      iexists _; iexact H2

theorem body_obligation0 (c : Dev nD) : BodyObligation (dat0 (F := F) V c) (defs₀ (F := F)) Variants.none () Set.univ := by
  intro t
  rw [bigSep_W0, bigSep_W0]
  exact sound_body V c t

theorem hin0 (c : Dev nD) : (Pipeline.ΦA spec0 c : sProp 𝕄) ⊢ (dat0 V c).Φ 0 := by
  rw [show (dat0 V c).Φ 0 = PhiC V c 0 (Nat.zero_le _) from rfl, PhiC_zero V c 0 _ rfl]

theorem hout0 (c : Dev nD) : (dat0 V c).Φ (Fin.last cfg0.N) ⊢ (Pipeline.ΦA spec0 c : sProp 𝕄) := by
  rw [show (dat0 V c).Φ (Fin.last cfg0.N) = PhiC V c (Fin.last cfg0.N).val (Nat.le_of_lt_succ (Fin.last cfg0.N).isLt) from rfl,
    PhiC_pos V c _ _ (by rw [Fin.val_last]; have : cfg0.N = 200 := N_0; omega), PhiA_eq]
  iintro ⟨⟨HS0, HS1, HS2, Hoth⟩, Hg⟩
  isplitl [HS0 HS1 HS2 Hoth]
  · isplitl [HS0]; · iexists _; iexact HS0
    isplitl [HS1]; · iexists _; iexact HS1
    isplitl [HS2]; · iexists _; iexact HS2
    iexact Hoth
  iexact Hg

end Cert.KernelIdeal.Ce

end
-- ==== Proof.PenBody.lean ====
/- Every tile takes the penalty region's invariant before it to the invariant after it. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.PenData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem coords1 : ∀ t : Fin cfg1.N, (grid1.coords t 0).val = t.val / 8 ∧ (grid1.coords t 1).val = t.val % 8 :=
  (by decide +kernel : ∀ t : Fin grid1.N, (grid1.coords t 0).val = t.val / 8 ∧ (grid1.coords t 1).val = t.val % 8)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

theorem idleAt1_4 : ∀ t : Fin cfg1.N, t.val ≠ 63 → cfg1.idle 4 (grid1.coords t) = true := by decide +kernel
theorem noFlush1_4 : ∀ t : Fin cfg1.N, t.val ≠ 63 → (cfg1.win 4).flush t = false := by decide +kernel
theorem liveAt1_4 : ∀ t : Fin cfg1.N, t.val = 63 → cfg1.idle 4 (grid1.coords t) = false := by decide +kernel

abbrev ms1_0 (t : Fin cfg1.N) : Memref sig .tc .vmem S1024x512 .bf16 := win1_0.stage (cfg1.slots t 0)
abbrev ms1_1 (t : Fin cfg1.N) : Memref sig .tc .vmem S1024x512 .bf16 := win1_1.stage (cfg1.slots t 1)
abbrev ms1_2 (t : Fin cfg1.N) : Memref sig .tc .vmem S1024x1 .f32 := win1_2.stage (cfg1.slots t 2)
abbrev ms1_3 (t : Fin cfg1.N) : Memref sig .tc .vmem S1x1024 .f32 := win1_3.stage (cfg1.slots t 3)
abbrev ms1_4 (t : Fin cfg1.N) : Memref sig .tc .vmem S1x1 .f32 := win1_4.stage (cfg1.slots t 4)

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

theorem PhiP_zero (c : Dev nD) (n : ℕ) (h : n ≤ cfg1.N) (hz : n = 0) : PhiP V c n h = Pipeline.ΦA spec1 c := by
  subst hz; rfl

theorem PhiP_succ (c : Dev nD) (n : ℕ) (hn : n < cfg1.N) :
    PhiP V c (n + 1) hn = iprop(others1 c (owns (c : Thread nD τ) accM fullShare (accAt V c n hn)) ∗ (∃ r, prngReg c r)) := rfl

theorem PhiP_pos (c : Dev nD) (n : ℕ) (h : n ≤ cfg1.N) (hz : n ≠ 0) :
    PhiP V c n h = iprop(others1 c (owns (c : Thread nD τ) accM fullShare (accAt V c (n - 1) (by omega))) ∗ (∃ r, prngReg c r)) := by
  cases n with
  | zero => exact absurd rfl hz
  | succ n => rfl

theorem Phi_castSucc (c : Dev nD) (t : Fin cfg1.N) :
    (dat1 V c).Φ t.castSucc = PhiP V c t.val (Nat.le_of_lt t.isLt) := by
  dsimp only [dat1]; simp only [Fin.coe_castSucc]

theorem others1_mono (c : Dev nD) (S S' : sProp 𝕄) (h : S ⊢ S') : others1 (F := F) c S ⊢ others1 (F := F) c S' := by
  unfold others1
  iintro ⟨O1, O2, O3, O4, O5, O6, O7, O8, O9, HS⟩
  iframe O1 O2 O3 O4 O5 O6 O7 O8 O9
  iapply h; iexact HS

theorem others1_forget (c : Dev nD) (X : Vec F S1x1 .f32) :
    others1 (F := F) c (owns (c : Thread nD τ) accM fullShare X) ⊢ others1 (F := F) c (iprop(∃ d, owns (c : Thread nD τ) accM fullShare d)) :=
  others1_mono c _ _ (by iintro H; iexists _; iexact H)

def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = PhiP V c (t.val + 1) t.isLt from rfl, PhiP_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 64 := lt_of_lt_of_eq t.isLt (show cfg1.N = 64 from N_1)
  obtain ⟨hc0, hc1⟩ := coords1 t
  by_cases hz : t.val = 0
  · have hi : (grid1.coords t 0).val = 0 := by omega
    have hj : (grid1.coords t 1).val = 0 := by omega
    rw [Dat.leavesExact_idle (dat1 V c) 4 t (idleAt1_4 t (by omega)) (noFlush1_4 t (by omega))]
    rw [accAt_eq V c t, show accFound V c t = k1_pay2 (F := F) from dif_pos hz]
    rw [Phi_castSucc V c t, PhiP_zero V c _ _ hz, PhiA_eq]
    unfold others1
    iintro ⟨⟨⟨O1, O2, O3, O4, O5, O6, O7, O8, O9, ⟨%dacc, Hacc⟩⟩, Hg⟩, Ho, ⟨%d0, H0⟩, ⟨%d1, H1⟩, ⟨%d2, H2⟩, ⟨%d3, H3⟩, ⟨%d4, H4⟩⟩
    iapply (run_first c Set.univ (grid1.coords t) _ _ _ _ _ _ _ _ _ _ _ _ (qiBlk V c t) (qjBlk V c t) (srBlk V c t) (scBlk V c t) _ dacc _ hi hj)
    iframe H0 H1 H2 H3 H4 Hacc
    iintro ⟨H0, H1, H2, H3, H4, Hacc⟩
    iframe O1 O2 O3 O4 O5 O6 O7 O8 O9 Hacc Hg Ho H0 H1 H2 H3
    iexists d4; iexact H4
  by_cases hl : t.val = 63
  · have hi : (grid1.coords t 0).val = 7 := by omega
    have hj : (grid1.coords t 1).val = 7 := by omega
    rw [show (dat1 V c).leavesExact 4 t = owns (c : Thread nD τ) (ms1_4 t) fullShare ((dat1 V c).after 4 t) from by
      unfold Dat.leavesExact; rw [liveAt1_4 t hl], after1_4]
    rw [accAt_eq V c t, show accFound V c t = accAt V c (t.val - 1) (Nat.lt_of_le_of_lt (Nat.sub_le _ _) t.isLt) from dif_neg hz]
    rw [Phi_castSucc V c t, PhiP_pos V c _ _ hz]
    unfold others1
    iintro ⟨⟨⟨O1, O2, O3, O4, O5, O6, O7, O8, O9, Hacc⟩, Hg⟩, Ho, ⟨%d0, H0⟩, ⟨%d1, H1⟩, ⟨%d2, H2⟩, ⟨%d3, H3⟩, ⟨%d4, H4⟩⟩
    iapply (run_last c Set.univ (grid1.coords t) _ _ _ _ _ _ _ _ _ _ _ _ (qiBlk V c t) (qjBlk V c t) (srBlk V c t) (scBlk V c t) _ _ _ hi hj)
    iframe H0 H1 H2 H3 H4 Hacc
    iintro ⟨H0, H1, H2, H3, H4, Hacc⟩
    iframe O1 O2 O3 O4 O5 O6 O7 O8 O9 Hacc Hg Ho H0 H1 H2 H3
    iexact H4
  · have hfirst : ¬((grid1.coords t 0).val = 0 ∧ (grid1.coords t 1).val = 0) := by omega
    have hlast : ¬((grid1.coords t 0).val = 7 ∧ (grid1.coords t 1).val = 7) := by omega
    rw [Dat.leavesExact_idle (dat1 V c) 4 t (idleAt1_4 t hl) (noFlush1_4 t hl)]
    rw [accAt_eq V c t, show accFound V c t = accAt V c (t.val - 1) (Nat.lt_of_le_of_lt (Nat.sub_le _ _) t.isLt) from dif_neg hz]
    rw [Phi_castSucc V c t, PhiP_pos V c _ _ hz]
    unfold others1
    iintro ⟨⟨⟨O1, O2, O3, O4, O5, O6, O7, O8, O9, Hacc⟩, Hg⟩, Ho, ⟨%d0, H0⟩, ⟨%d1, H1⟩, ⟨%d2, H2⟩, ⟨%d3, H3⟩, ⟨%d4, H4⟩⟩
    iapply (run_mid c Set.univ (grid1.coords t) _ _ _ _ _ _ _ _ _ _ _ _ (qiBlk V c t) (qjBlk V c t) (srBlk V c t) (scBlk V c t) _ _ _ hfirst hlast)
    iframe H0 H1 H2 H3 H4 Hacc
    iintro ⟨H0, H1, H2, H3, H4, Hacc⟩
    iframe O1 O2 O3 O4 O5 O6 O7 O8 O9 Hacc Hg Ho H0 H1 H2 H3
    iexists d4; iexact H4

theorem body_obligation1 (c : Dev nD) : BodyObligation (dat1 (F := F) V c) (defs₀ (F := F)) Variants.none () Set.univ := fun t => by
  rw [bigSep_W1, bigSep_W1]
  exact sound_body V c t

theorem hin1 (c : Dev nD) : (Pipeline.ΦA spec1 c : sProp 𝕄) ⊢ (dat1 V c).Φ 0 := by
  rw [show (dat1 V c).Φ 0 = PhiP V c 0 (Nat.zero_le _) from rfl, PhiP_zero V c 0 _ rfl]

theorem hout1 (c : Dev nD) : (dat1 V c).Φ (Fin.last cfg1.N) ⊢ (Pipeline.ΦA spec1 c : sProp 𝕄) := by
  have hN : cfg1.N = 64 := N_1
  rw [show (dat1 V c).Φ (Fin.last cfg1.N) = PhiP V c (Fin.last cfg1.N).val (Nat.le_of_lt_succ (Fin.last cfg1.N).isLt) from rfl,
    PhiP_pos V c _ _ (by rw [Fin.val_last]; omega), PhiA_eq]
  iintro ⟨HO, Hg⟩
  isplitl [HO]
  · iapply (others1_forget c _); iexact HO
  iexact Hg

end Cert.KernelIdeal.Pen

end
-- ==== Proof.CeLayout.lean ====
/- Entry (p, k) of block (r, j) of the logits is entry (1024 r + p, 1280 j + k); row x of the output comes from row block x / 1024 at row x % 1024. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.CeData
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Ce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

variable (V : (c : Dev nD) → (b : Ref sig .tc) → Buf (Elt F) ((c : Thread nD τ).loc b))

theorem blockIdx : ∀ t : Fin cfg0.N,
    win0_0.index t (0 : Fin 2) = t.val / 25 ∧ win0_0.index t (1 : Fin 2) = t.val % 25
    ∧ win0_1.index t (0 : Fin 2) = t.val / 25 ∧ win0_1.index t (1 : Fin 2) = 0
    ∧ win0_2.index t (0 : Fin 2) = t.val / 25 ∧ win0_2.index t (1 : Fin 2) = 0 :=
  (by decide +kernel : ∀ t : Fin grid0.N, _)

theorem xblk_apply (c : Dev nD) (t : Fin cfg0.N) (p : Fin 1024) (k : Fin 1280) :
    xblk V c t (ix2 p k) = (V c main_arg0 : Vec F S8192x32000 .f32) (ix2 (rowOf t p) (colOf t k)) := by
  obtain ⟨e0, e1, -, -, -, -⟩ := blockIdx t
  unfold xblk iblk0
  rw [View.read_apply]
  show V c main_arg0 (((cfg0.win 0).blk t).view.emb (ix2 p k)) = V c main_arg0 (ix2 (rowOf t p) (colOf t k))
  congr 1
  funext a
  apply Fin.ext
  match a with
  | ⟨0, _⟩ =>
    show win0_0.index t (0 : Fin 2) * 1024 + 1 * p.val = 1024 * (t.val / 25) + p.val
    rw [e0]; omega
  | ⟨1, _⟩ =>
    show win0_0.index t (1 : Fin 2) * 1280 + 1 * k.val = 1280 * (t.val % 25) + k.val
    rw [e1]; omega

theorem lblk_apply (c : Dev nD) (t : Fin cfg0.N) (p : Fin 1024) :
    lblk V c t (ix2 p 0) = (V c main_v0 : Vec F S8192x1 .i32) (ix2 (rowOf t p) 0) := by
  obtain ⟨-, -, e0, e1, -, -⟩ := blockIdx t
  unfold lblk iblk0
  rw [View.read_apply]
  show V c main_v0 (((cfg0.win 1).blk t).view.emb (ix2 p 0)) = V c main_v0 (ix2 (rowOf t p) 0)
  congr 1
  funext a
  apply Fin.ext
  match a with
  | ⟨0, _⟩ =>
    show win0_1.index t (0 : Fin 2) * 1024 + 1 * p.val = 1024 * (t.val / 25) + p.val
    rw [e0]; omega
  | ⟨1, _⟩ =>
    show win0_1.index t (1 : Fin 2) * 1 + 1 * 0 = 0
    rw [e1]

def outCol (c : Dev nD) : Vec F S8192x1 .f32 := fun i =>
  outAt V c (lastOf (i 0)) (ix2 (⟨(i 0).val % 1024, Nat.mod_lt _ (by decide)⟩ : Fin 1024) 0)

theorem outCol_at (c : Dev nD) (t : Fin cfg0.N) (h24 : t.val % 25 = 24) (i : S8192x1.Idx) (y : S1024x1.Idx)
    (h0 : (i 0).val = (t.val / 25) * 1024 + (y 0).val) : outCol V c i = outAt V c t y := by
  have hy : (y 0).val < 1024 := idx2_lt0 y
  have e1 : lastOf (i 0) = t := Fin.ext (by show 25 * ((i 0).val / 1024) + 24 = t.val; omega)
  have e2 : ix2 (⟨(i 0).val % 1024, Nat.mod_lt _ (by decide)⟩ : Fin 1024) (0 : Fin 1) = y := by
    funext a
    match a with
    | ⟨0, _⟩ => exact Fin.ext (by show (i 0).val % 1024 = (y 0).val; omega)
    | ⟨1, _⟩ => exact Fin.ext (by show 0 = (y 1).val; have := idx2_lt1 y; omega)
  unfold outCol
  rw [e1, e2]

theorem flushed_out (c : Dev nD) (t : Fin cfg0.N) (hf : (cfg0.win 2).flush t = true) :
    (dat0 V c).flushed 2 t = ((cfg0.win 2).blk t).view.read (Elt F) (outCol V c) := by
  have h24 : t.val % 25 = 24 := (flush0_2 t).mp hf
  obtain ⟨-, -, -, -, e0, e1⟩ := blockIdx t
  show (cfg0.win 2).cut (grid0.coords t) ((dat0 V c).after 2 t) = _
  rw [after0_2]
  funext y
  rw [View.read_apply]
  show outAt V c t y = outCol V c (((cfg0.win 2).blk t).view.emb y)
  refine (outCol_at V c t h24 _ y ?_).symm
  show win0_2.index t (0 : Fin 2) * 1024 + 1 * (y 0).val = (t.val / 25) * 1024 + (y 0).val
  rw [e0]; omega

theorem mem_blk_out (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v1).slice (win0_2.rect t)).set ↔ _
  rw [View.set_slice_whole, Rect.mem_set_unit]
  exact Iff.rfl

theorem cover_out (i : S8192x1.Idx) :
    ∃ t : Fin cfg0.N, (cfg0.win 2).flush t = true ∧ i ∈ ((cfg0.win 2).blk t).view.set := by
  have h0 : (i 0).val < 8192 := idx2_lt0 i
  have h1 : (i 1).val < 1 := idx2_lt1 i
  obtain ⟨-, -, -, -, e0, e1⟩ := blockIdx (lastOf (i 0))
  have hv : (lastOf (i 0)).val = 25 * ((i 0).val / 1024) + 24 := rfl
  refine ⟨lastOf (i 0), (flush0_2 _).mpr (by rw [hv]; omega), ?_⟩
  rw [mem_blk_out]
  intro a
  match a with
  | ⟨0, _⟩ =>
    show win0_2.index (lastOf (i 0)) (0 : Fin 2) * 1024 ≤ (i 0).val ∧ (i 0).val < win0_2.index (lastOf (i 0)) (0 : Fin 2) * 1024 + 1024
    rw [e0, hv]; omega
  | ⟨1, _⟩ =>
    show win0_2.index (lastOf (i 0)) (1 : Fin 2) * 1 ≤ (i 1).val ∧ (i 1).val < win0_2.index (lastOf (i 0)) (1 : Fin 2) * 1 + 1
    rw [e1]; omega

theorem arrAt_out (c : Dev nD) (r : Fin 8192) :
    ((dat0 V c).arrAt 2 cfg0.N : Vec F S8192x1 .f32) (ix2 r 0)
      = outAt V c (lastOf r) (ix2 (⟨r.val % 1024, Nat.mod_lt _ (by decide)⟩ : Fin 1024) 0) :=
  congrFun ((dat0 V c).arrAt_eq_of_cover 2 (outCol V c) (flushed_out V c) cover_out) (ix2 r 0)

theorem arrAt_in0 (c : Dev nD) : (dat0 V c).arrAt 0 cfg0.N = V c main_arg0 :=
  (dat0 V c).arrAt_in 0 rfl cfg0.N
theorem arrAt_in1 (c : Dev nD) : (dat0 V c).arrAt 1 cfg0.N = V c main_v0 :=
  (dat0 V c).arrAt_in 1 rfl cfg0.N

end Cert.KernelIdeal.Ce

end
-- ==== Proof.PenLayout.lean ====
/- Row a of the two query blocks of tile (i, j) is query row 1024 i + a, resp. 1024 j + a; likewise the squared norms. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.PenData
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

variable (V : (c : Dev nD) → (b : Ref sig .tc) → Buf (Elt F) ((c : Thread nD τ).loc b))

theorem blockIdx : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = 0 ∧ win1_4.index t (1 : Fin 2) = 0 :=
  (by decide +kernel : ∀ t : Fin grid1.N, _)

theorem qiBlk_apply (c : Dev nD) (t : Fin cfg1.N) (a : Fin 1024) (k : Fin 512) :
    qiBlk V c t (ix2 a k) = (V c main_v16 : Vec F S8192x512 .bf16) (ix2 (rowI t a) k) := by
  obtain ⟨e0, e1, -, -, -, -, -, -, -, -⟩ := blockIdx t
  unfold qiBlk iblk1
  rw [View.read_apply]
  show V c main_v16 (((cfg1.win 0).blk t).view.emb (ix2 a k)) = V c main_v16 (ix2 (rowI t a) k)
  congr 1
  funext d
  apply Fin.ext
  match d with
  | ⟨0, _⟩ =>
    show win1_0.index t (0 : Fin 2) * 1024 + 1 * a.val = 1024 * (t.val / 8) + a.val
    rw [e0]; omega
  | ⟨1, _⟩ =>
    show win1_0.index t (1 : Fin 2) * 512 + 1 * k.val = k.val
    rw [e1]; omega

theorem qjBlk_apply (c : Dev nD) (t : Fin cfg1.N) (b : Fin 1024) (k : Fin 512) :
    qjBlk V c t (ix2 b k) = (V c main_v16 : Vec F S8192x512 .bf16) (ix2 (rowJ t b) k) := by
  obtain ⟨-, -, e0, e1, -, -, -, -, -, -⟩ := blockIdx t
  unfold qjBlk iblk1
  rw [View.read_apply]
  show V c main_v16 (((cfg1.win 1).blk t).view.emb (ix2 b k)) = V c main_v16 (ix2 (rowJ t b) k)
  congr 1
  funext d
  apply Fin.ext
  match d with
  | ⟨0, _⟩ =>
    show win1_1.index t (0 : Fin 2) * 1024 + 1 * b.val = 1024 * (t.val % 8) + b.val
    rw [e0]; omega
  | ⟨1, _⟩ =>
    show win1_1.index t (1 : Fin 2) * 512 + 1 * k.val = k.val
    rw [e1]; omega

theorem srBlk_apply (c : Dev nD) (t : Fin cfg1.N) (a : Fin 1024) :
    srBlk V c t (ix2 a 0) = (V c main_v14 : Vec F S8192x1 .f32) (ix2 (rowI t a) 0) := by
  obtain ⟨-, -, -, -, e0, e1, -, -, -, -⟩ := blockIdx t
  unfold srBlk iblk1
  rw [View.read_apply]
  show V c main_v14 (((cfg1.win 2).blk t).view.emb (ix2 a 0)) = V c main_v14 (ix2 (rowI t a) 0)
  congr 1
  funext d
  apply Fin.ext
  match d with
  | ⟨0, _⟩ =>
    show win1_2.index t (0 : Fin 2) * 1024 + 1 * a.val = 1024 * (t.val / 8) + a.val
    rw [e0]; omega
  | ⟨1, _⟩ =>
    show win1_2.index t (1 : Fin 2) * 1 + 1 * 0 = 0
    rw [e1]

theorem scBlk_apply (c : Dev nD) (t : Fin cfg1.N) (b : Fin 1024) :
    scBlk V c t (ix2 0 b) = (V c main_v15 : Vec F S1x8192 .f32) (ix2 0 (rowJ t b)) := by
  obtain ⟨-, -, -, -, -, -, e0, e1, -, -⟩ := blockIdx t
  unfold scBlk iblk1
  rw [View.read_apply]
  show V c main_v15 (((cfg1.win 3).blk t).view.emb (ix2 0 b)) = V c main_v15 (ix2 0 (rowJ t b))
  congr 1
  funext d
  apply Fin.ext
  match d with
  | ⟨0, _⟩ =>
    show win1_3.index t (0 : Fin 2) * 1 + 1 * 0 = 0
    rw [e0]
  | ⟨1, _⟩ =>
    show win1_3.index t (1 : Fin 2) * 1024 + 1 * b.val = 1024 * (t.val % 8) + b.val
    rw [e1]; omega

theorem idx_S1x1 (i j : S1x1.Idx) : i = j := by
  funext d
  have hi0 := idx2_lt0 i; have hi1 := idx2_lt1 i; have hj0 := idx2_lt0 j; have hj1 := idx2_lt1 j
  match d with
  | ⟨0, _⟩ => exact Fin.ext (by show (i 0).val = (j 0).val; omega)
  | ⟨1, _⟩ => exact Fin.ext (by show (i 1).val = (j 1).val; omega)

theorem flushed_out (c : Dev nD) (t : Fin cfg1.N) (hf : (cfg1.win 4).flush t = true) :
    (dat1 V c).flushed 4 t = ((cfg1.win 4).blk t).view.read (Elt F) (accAt V c lastPt.val lastPt.isLt) := by
  have hN : cfg1.N = 64 := N_1
  have h63 : t.val = 63 := by have := (flush1_4 t).mp hf; have := t.isLt; omega
  obtain rfl : t = lastPt := Fin.ext h63
  show (cfg1.win 4).cut (grid1.coords lastPt) ((dat1 V c).after 4 lastPt) = _
  rw [after1_4]
  funext y
  rw [View.read_apply]
  show accAt V c lastPt.val lastPt.isLt y = accAt V c lastPt.val lastPt.isLt (((cfg1.win 4).blk lastPt).view.emb y)
  exact congrArg _ (idx_S1x1 _ _)

theorem mem_blk_out (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v17).slice (win1_4.rect t)).set ↔ _
  rw [View.set_slice_whole, Rect.mem_set_unit]
  exact Iff.rfl

theorem cover_out (i : S1x1.Idx) :
    ∃ t : Fin cfg1.N, (cfg1.win 4).flush t = true ∧ i ∈ ((cfg1.win 4).blk t).view.set := by
  have h0 : (i 0).val < 1 := idx2_lt0 i
  have h1 : (i 1).val < 1 := idx2_lt1 i
  obtain ⟨-, -, -, -, -, -, -, -, e0, e1⟩ := blockIdx lastPt
  refine ⟨lastPt, (flush1_4 _).mpr rfl, ?_⟩
  rw [mem_blk_out]
  intro a
  match a with
  | ⟨0, _⟩ =>
    show win1_4.index lastPt (0 : Fin 2) * 1 ≤ (i 0).val ∧ (i 0).val < win1_4.index lastPt (0 : Fin 2) * 1 + 1
    rw [e0]; omega
  | ⟨1, _⟩ =>
    show win1_4.index lastPt (1 : Fin 2) * 1 ≤ (i 1).val ∧ (i 1).val < win1_4.index lastPt (1 : Fin 2) * 1 + 1
    rw [e1]; omega

theorem arrAt_out (c : Dev nD) :
    ((dat1 V c).arrAt 4 cfg1.N : Vec F S1x1 .f32) = accAt V c lastPt.val lastPt.isLt :=
  (dat1 V c).arrAt_eq_of_cover 4 (accAt V c lastPt.val lastPt.isLt) (flushed_out V c) cover_out

theorem arrAt_in (c : Dev nD) (w : Fin cfg1.W) (hw : w.val < 4) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨n + 4, _⟩, h => exact absurd h (by show ¬ n + 4 < 4; omega)
  exact (dat1 V c).arrAt_in w hin cfg1.N

end Cert.KernelIdeal.Pen

end
-- ==== Proof.PenArrays.lean ====
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.PenData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem arrays1_eq (c : Dev nD) (G : (w : Fin cfg1.W) → Buf (Elt F) ((cfg1.win w).arr.view.loc (c.tc : Thread nD τ))) :
    ((dat1 V c).arrays G : sProp 𝕄)
      = iprop((((c.tc : Thread nD τ).loc main_v16) ↦{fullShare.left} G 0) ∗ (((c.tc : Thread nD τ).loc main_v16) ↦{fullShare.right} G 1)
          ∗ (((c.tc : Thread nD τ).loc main_v14) ↦{fullShare} G 2) ∗ (((c.tc : Thread nD τ).loc main_v15) ↦{fullShare} G 3)
          ∗ (((c.tc : Thread nD τ).loc main_v17) ↦{fullShare} G 4)) := by
  unfold Dat.arrays
  rw [bigSep_W1, (arr_whole1 0).set_eq_univ, (arr_whole1 2).set_eq_univ, (arr_whole1 3).set_eq_univ, (arr_whole1 4).set_eq_univ]
  rfl

theorem arrBufs1_eq (c : Dev nD) (W : (b : Ref sig .tc) → Buf (Elt F) ((c.tc : Thread nD τ).loc b)) :
    (Pipeline.arrBufs spec1 c W : sProp 𝕄)
      = iprop((((c.tc : Thread nD τ).loc main_v16) ↦{fullShare} W main_v16) ∗ (((c.tc : Thread nD τ).loc main_v14) ↦{fullShare} W main_v14)
          ∗ (((c.tc : Thread nD τ).loc main_v15) ↦{fullShare} W main_v15) ∗ (((c.tc : Thread nD τ).loc main_v17) ↦{fullShare} W main_v17)) := by
  unfold Pipeline.arrBufs
  rw [bigSep_eq_bigSepL_of_eq [main_v16, main_v14, main_v15, main_v17] (by decide) (by decide)]
  rfl

theorem arrays_of_bufs (c : Dev nD) (W : (b : Ref sig .tc) → Buf (Elt F) ((c.tc : Thread nD τ).loc b))
    (G : (w : Fin cfg1.W) → Buf (Elt F) ((cfg1.win w).arr.view.loc (c.tc : Thread nD τ)))
    (hG : ∀ w, G w = W (Pipeline.arrRef spec1 w)) :
    (Pipeline.arrBufs spec1 c W : sProp 𝕄) ⊢ (dat1 V c).arrays G := by
  rw [arrays1_eq, arrBufs1_eq, hG 0, hG 1, hG 2, hG 3, hG 4]
  iintro ⟨H16, H14, H15, H17⟩
  ihave H16' := (pointsTo_share (PosShare.mem_left_op_right fullShare)).1 $$ H16
  icases H16' with ⟨Hl, Hr⟩
  isplitl [Hl]; · iexact Hl
  isplitl [Hr]; · iexact Hr
  isplitl [H14]; · iexact H14
  isplitl [H15]; · iexact H15
  iexact H17

theorem bufs_of_arrays (c : Dev nD) (W' : (b : Ref sig .tc) → Buf (Elt F) ((c.tc : Thread nD τ).loc b))
    (G : (w : Fin cfg1.W) → Buf (Elt F) ((cfg1.win w).arr.view.loc (c.tc : Thread nD τ)))
    (hG : ∀ w, G w = W' (Pipeline.arrRef spec1 w)) :
    ((dat1 V c).arrays G : sProp 𝕄) ⊢ Pipeline.arrBufs spec1 c W' := by
  rw [arrays1_eq, arrBufs1_eq, hG 0, hG 1, hG 2, hG 3, hG 4]
  iintro ⟨Hl, Hr, H14, H15, H17⟩
  ihave H16 := (pointsTo_share (PosShare.mem_left_op_right fullShare)).2 $$ [Hl Hr]
  · isplitl [Hl]; · iexact Hl
    iexact Hr
  isplitl [H16]; · iexact H16
  isplitl [H14]; · iexact H14
  isplitl [H15]; · iexact H15
  iexact H17

end Cert.KernelIdeal.Pen

end
-- ==== Proof.KRun.lean ====
/- Every execution of @main ends with the arguments as launched and the result at its value. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.Gen.KernelIdeal.Regions
import proofs.«410698_j38302518346315_1_alg».proof.Proof.KW
import proofs.«410698_j38302518346315_1_alg».proof.Proof.CeBody
import proofs.«410698_j38302518346315_1_alg».proof.Proof.PenBody
import proofs.«410698_j38302518346315_1_alg».proof.Proof.CeLayout
import proofs.«410698_j38302518346315_1_alg».proof.Proof.PenLayout
import proofs.«410698_j38302518346315_1_alg».proof.Proof.PenArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem hF0 (c : Dev nD) (w : Fin cfg0.W) : (pdats m 0 c).arrAt w cfg0.N = R2 m c (Pipeline.arrRef spec0 w) := by
  match w with
  | ⟨0, _⟩ => exact (Ce.arrAt_in0 (R1 m) c).trans (W2_of m c main_arg0 (by decide)).symm
  | ⟨1, _⟩ => exact (Ce.arrAt_in1 (R1 m) c).trans (W2_of m c main_v0 (by decide)).symm
  | ⟨2, _⟩ => exact (W2_v1 m c).symm

theorem hrest0 (c : Dev nD) : ∀ b, b ∉ Finset.univ.image (Pipeline.arrRef spec0) → R2 m c b = R1 m c b :=
  fun b hb => W2_of m c b fun e => hb (Finset.mem_image.mpr ⟨2, Finset.mem_univ _, e.symm⟩)

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (Ce.body_obligation0 (R1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Ce.hin0 (R1 m) c
    unfold Pipeline.ΦA at h
    rw [show (pdats m 0 c).Φ 0 = (Ce.dat0 (R1 m) c).Φ 0 from rfl]
    iintro ⟨Hp, -, Hr⟩
    iapply h
    isplitl [Hr]; · iexact Hr
    iexact Hp
  hout c := by
    rw [Pipeline.ownSems0_none]
    have h := Ce.hout0 (R1 m) c
    unfold Pipeline.ΦA at h
    rw [show (pdats m 0 c).Φ (Fin.last _) = (Ce.dat0 (R1 m) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) : (pdats m 1 c).arrAt w cfg1.N = R6 m c (Pipeline.arrRef spec1 w) := by
  match w with
  | ⟨0, _⟩ => exact (Pen.arrAt_in (R5 m) c 0 (by decide)).trans (W6_of m c main_v16 (by decide)).symm
  | ⟨1, _⟩ => exact (Pen.arrAt_in (R5 m) c 1 (by decide)).trans (W6_of m c main_v16 (by decide)).symm
  | ⟨2, _⟩ => exact (Pen.arrAt_in (R5 m) c 2 (by decide)).trans (W6_of m c main_v14 (by decide)).symm
  | ⟨3, _⟩ => exact (Pen.arrAt_in (R5 m) c 3 (by decide)).trans (W6_of m c main_v15 (by decide)).symm
  | ⟨4, _⟩ => exact (W6_v17 m c).symm

set_option backward.isDefEq.respectTransparency.types false in
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (Pen.body_obligation1 (R5 m) c).loose
  hwaits := Pipeline.hwaits_of_owed_zero _ _ _ _ L lv 1 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec1 c (R5 m c)
  hentry c := by
    rw [Pipeline.ownSems0_none]
    have hsplit : (unscopedBufs c (R5 m c) : sProp 𝕄)
        ⊢ iprop((pdats m 1 c).arrays ((pdats m 1 c).arrAt · 0) ∗ Pipeline.unscopedRest spec1 c (R5 m c)) := by
      rw [Pipeline.unscopedBufs_split₀ (cfgs) 1 winFacts₀1.arr_unscoped c (R5 m c)]
      exact sep_mono (Pen.arrays_of_bufs (R5 m) c (R5 m c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Pen.hin1 (R5 m) c
    unfold Pipeline.ΦA at h
    rw [show (pdats m 1 c).Φ 0 = (Pen.dat1 (R5 m) c).Φ 0 from rfl]
    iintro ⟨Hp, -, Hr⟩
    iapply h
    isplitl [Hr]; · iexact Hr
    iexact Hp
  hout c := by
    rw [Pipeline.ownSems0_none]
    have h := Pen.hout1 (R5 m) c
    unfold Pipeline.ΦA at h
    rw [show (pdats m 1 c).Φ (Fin.last _) = (Pen.dat1 (R5 m) c).Φ (Fin.last cfg1.N) from rfl]
    iintro HΦ
    ihave H := h $$ HΦ
    icases H with ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (R5 m c))
        ⊢ (unscopedBufs c (R6 m c) : sProp 𝕄) := by
      rw [Pipeline.unscopedBufs_split₀ (cfgs) 1 winFacts₀1.arr_unscoped c (R6 m c)]
      refine sep_mono (Pen.bufs_of_arrays (R5 m) c (R6 m c) _ (hF1 m c)) (Entails.of_eq ?_)
      unfold Pipeline.unscopedRest
      exact bigSep_congr fun b hb => by
        rw [show R6 m c b = R5 m c b from W6_of m c b fun e =>
          (Finset.mem_sdiff.mp hb).2 (Finset.mem_image.mpr ⟨4, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl, fun c =>
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

theorem run_result : θ_run defs (onTc (τ := τ) (main (F := F))) ⟨m, fun _ => 0, ρ⟩ (fun r => ∀ c : Dev nD,
      r.2.mem ((c.tc : Thread nD τ).loc main_v20) = W7 m c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v20 (by decide)),
     (h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

end Cert.KernelIdeal.Run

end
-- ==== Proof.LibEReal.lean ====
/- Real numbers inside the extended reals: sums, maxima, exponentials, square roots and quotients of reals are real. -/
import Idealize.ShloMosaic.PureOps.Ideal
import Idealize.ShloMosaic.PureOps.Ideal.Laws

noncomputable section

open scoped BigOperators

namespace Cert.LibEReal

open Idealize.ShloMosaic

theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem max_coe (a b : ℝ) : max ((a : ℝ) : EReal) ((b : ℝ) : EReal) = ((max a b : ℝ) : EReal) := by
  exact (EReal.coe_strictMono.monotone.map_max (a := a) (b := b)).symm

theorem fold_max_bot_coe {ι : Type} [Fintype ι] [Nonempty ι] (f : ι → ℝ) :
    (Finset.univ : Finset ι).fold max (⊥ : EReal) (fun i => ((f i : ℝ) : EReal))
      = ((Finset.univ.sup' Finset.univ_nonempty f : ℝ) : EReal) := by
  apply le_antisymm
  · refine (Finset.fold_max_le _).2 ⟨bot_le, fun i hi => ?_⟩
    exact EReal.coe_le_coe_iff.2 (Finset.le_sup' f hi)
  · obtain ⟨i, hi, hsup⟩ := Finset.exists_mem_eq_sup' Finset.univ_nonempty f
    rw [hsup]
    exact (Finset.le_fold_max _).2 (Or.inr ⟨i, hi, le_rfl⟩)

theorem ofBits_neg_inf : Ideal.ofBits .f32 0xFF800000#32 = (⊥ : EReal) := by
  simp [Ideal.ofBits, Ideal.ieee]

theorem ofBits_one : Ideal.ofBits .f32 0x3F800000#32 = ((1 : ℝ) : EReal) := by
  simp [Ideal.ofBits, Ideal.ieee]
  rw [← EReal.coe_mul, ← EReal.coe_one, EReal.coe_eq_coe_iff]
  norm_num

theorem ofBits_two : Ideal.ofBits .f32 0x40000000#32 = ((2 : ℝ) : EReal) := by
  simp [Ideal.ofBits, Ideal.ieee]
  rw [← EReal.coe_mul, EReal.coe_eq_coe_iff]
  norm_num

theorem exp_coe (r : ℝ) : Ideal.exp ((r : ℝ) : EReal) = ((Real.exp r : ℝ) : EReal) := by
  exact Ideal.exp_coe r

theorem exp_bot : Ideal.exp (⊥ : EReal) = 0 := by
  exact Ideal.exp_bot

theorem sqrt_coe {r : ℝ} (h : 0 ≤ r) : Ideal.sqrt ((r : ℝ) : EReal) = ((Real.sqrt r : ℝ) : EReal) := by
  rw [Ideal.sqrt_coe, if_neg (not_lt.2 h)]

theorem div_coe_coe (a : ℝ) {b : ℝ} (h : b ≠ 0) :
    Ideal.div ((a : ℝ) : EReal) ((b : ℝ) : EReal) = ((a / b : ℝ) : EReal) := by
  rw [Ideal.div_coe h, ← EReal.coe_mul, mul_one_div]

end Cert.LibEReal

end
-- ==== Proof.CePay.lean ====
/- The cross-entropy body's arithmetic read at one row. -/
import proofs.«410698_j38302518346315_1_alg».proof.Proof.Gen.KernelIdeal.Skeleton
import proofs.«410698_j38302518346315_1_alg».proof.Proof.LibEReal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

open scoped BigOperators

namespace Cert.KernelIdeal.Ce

open Idealize.ShloMosaic Idealize.ShloMosaic.ValueIdx
open Cert.KernelIdeal Cert.KernelIdeal.Gen

theorem col_cast_at {α : Type} (v : S1024.Idx → α) (h : S1024.ShapeCasts S1024x1) (p : Fin 1024) :
    shapeCast S1024x1 v h (ix2 p (0 : Fin 1)) = v (ix1 p) :=
  shapeCast_apply v h _ _ (by
    rw [Shape.rowMajor_val_one, Shape.rowMajor_val_two]
    show p.val = p.val * 1 + 0
    omega)

theorem col_bcast_at {α : Type} (v : S1024x1.Idx → α) (h : S1024x1.Broadcasts S1024x1280) (p : Fin 1024) (k : Fin 1280) :
    broadcastTo S1024x1280 v h (ix2 p k) = v (ix2 p (0 : Fin 1)) := by
  refine broadcastTo_apply v h (ix2 p k) (ix2 p (0 : Fin 1)) fun ax => ?_
  match ax with
  | ⟨0, _⟩ => rfl
  | ⟨1, _⟩ => rfl

theorem lift_at (h : S1024x1280.Reduces [1] S1024) (p : Fin 1024) (k : Fin 1280) :
    h.lift (ix1 p) k = ix2 p k := by
  funext ax
  match ax with
  | ⟨0, _⟩ => exact Fin.ext rfl
  | ⟨1, _⟩ => exact Fin.ext rfl

theorem rowsum_at (src : FVec Ideal S1024x1280 .f32) (h : S1024x1280.Reduces [1] S1024) (hφ : FKind.Formats FTy.f32)
    (hacc : (0x00000000#32 : BitVec 32) = 0x00000000#32) (p : Fin 1024) :
    multiReduction (F := Ideal) .add [1] S1024 src 0x00000000#32 h hφ hacc (ix1 p) = ∑ k : Fin 1280, src (ix2 p k) := by
  refine (Ideal.multiReduction_add_single src 0x00000000#32 h hφ hacc (ix1 p)).trans ?_
  exact Finset.sum_congr rfl (fun k _ => congrArg src (lift_at h p k))

theorem rowmax_at (src : FVec Ideal S1024x1280 .f32) (h : S1024x1280.Reduces [1] S1024) (hφ : FKind.Formats FTy.f32)
    (hacc : (0xFF800000#32 : BitVec 32) = 0xFF800000#32) (p : Fin 1024) :
    multiReduction (F := Ideal) .maximumf [1] S1024 src 0xFF800000#32 h hφ hacc (ix1 p)
      = (Finset.univ : Finset (Fin 1280)).fold max (⊥ : EReal) (fun k => src (ix2 p k)) := by
  refine (Ideal.multiReduction_maximumf_single src 0xFF800000#32 h hφ hacc (ix1 p)).trans ?_
  rw [Ideal.ofBits_def, Cert.LibEReal.ofBits_neg_inf]
  have e : (src ∘ h.lift (ix1 p)) = (fun k : Fin 1280 => src (ix2 p k)) := funext fun k => congrArg src (lift_at h p k)
  exact congrArg (fun f => Finset.fold max (⊥ : EReal) f (Finset.univ : Finset (Fin 1280))) e

variable (x : Vec Ideal S1024x1280 .f32) (m0 l0 t0 : Vec Ideal S1024x1 .f32) (lab : Vec Ideal S1024x1 .i32) (p : Fin 1024)

theorem pay6_at : k0_pay6 x m0 (ix2 p (0 : Fin 1))
    = max (m0 (ix2 p 0)) ((Finset.univ : Finset (Fin 1280)).fold max (⊥ : EReal) (fun k => x (ix2 p k))) := by
  unfold k0_pay6
  refine (maximumf_apply _ _ _).trans ?_
  refine congrArg (max (m0 (ix2 p 0))) ?_
  refine (col_cast_at _ _ p).trans ?_
  exact rowmax_at x _ _ _ p

theorem pay8_at : k0_pay8 x m0 (ix2 p (0 : Fin 1)) = k0_pay6 x m0 (ix2 p 0) := by
  unfold k0_pay8
  rw [shapeCast_self]

theorem pay7_at : k0_pay7 x m0 l0 (ix2 p (0 : Fin 1))
    = l0 (ix2 p 0) * Ideal.exp (m0 (ix2 p 0) - k0_pay6 x m0 (ix2 p 0))
      + ∑ k : Fin 1280, Ideal.exp (x (ix2 p k) - k0_pay6 x m0 (ix2 p 0)) := by
  unfold k0_pay7
  rw [shapeCast_self]
  refine (addf_apply _ _ _).trans ?_
  refine congrArg₂ (· + ·) rfl ?_
  refine (col_cast_at _ _ p).trans ?_
  refine (rowsum_at _ _ _ _ p).trans ?_
  refine Finset.sum_congr rfl (fun k _ => ?_)
  show Ideal.exp (x (ix2 p k) - broadcastTo S1024x1280 (k0_pay6 x m0) _ (ix2 p k)) = _
  rw [col_bcast_at]

theorem pay1_at (v35 v36 : Vec Ideal S1024x1 .f32) : k0_pay1 v35 v36 (ix2 p (0 : Fin 1)) = v36 (ix2 p 0) + v35 (ix2 p 0) := by
  unfold k0_pay1
  rw [shapeCast_self]
  rfl

theorem pay2_at (m l t : Vec Ideal S1024x1 .f32) :
    k0_pay2 m l t (ix2 p (0 : Fin 1)) = m (ix2 p 0) + Ideal.log (l (ix2 p 0)) - t (ix2 p 0) := by
  unfold k0_pay2
  rfl

theorem pay3_at : k0_pay3 (F := Ideal) (ix2 p (0 : Fin 1)) = (⊥ : EReal) := by
  unfold k0_pay3
  rw [shapeCast_self]
  exact Cert.LibEReal.ofBits_neg_inf
theorem pay4_at : k0_pay4 (F := Ideal) (ix2 p (0 : Fin 1)) = (0 : EReal) := by
  unfold k0_pay4
  rw [shapeCast_self]
  exact Ideal.ofBits_zero_f32
theorem pay5_at : k0_pay5 (F := Ideal) (ix2 p (0 : Fin 1)) = (0 : EReal) := by
  unfold k0_pay5
  rw [shapeCast_self]
  exact Ideal.ofBits_zero_f32

theorem pay9_at (i : grid0.Coords) : k0_pay9 i x lab (ix2 p (0 : Fin 1))
    = ∑ k : Fin 1280, Scalar.select (IntOp.cmpi .eq (BitVec.ofNat 32 k.val + BitVec.ofNat 32 (i 1).val * 1280#32) (lab (ix2 p 0)))
        (x (ix2 p k)) (0 : EReal) := by
  unfold k0_pay9
  refine (col_cast_at _ _ p).trans ?_
  refine (rowsum_at _ _ _ _ p).trans ?_
  refine Finset.sum_congr rfl (fun k _ => ?_)
  refine (select_apply _ _ _ _).trans ?_
  have h1 : iota .tc S1024x1280 32 [1] iota_S1024x1280_d1_w32 (ix2 p k) = BitVec.ofNat 32 k.val :=
    iota_single_apply .tc S1024x1280 32 1 _ (ix2 p k)
  have h2 : broadcastTo S1024x1280 (shapeCast S1024x1 lab shapeCasts_S1024x1_S1024x1) broadcasts_S1024x1_S1024x1280 (ix2 p k)
      = lab (ix2 p 0) := by
    rw [col_bcast_at, shapeCast_self]
  show Scalar.select (IntOp.cmpi .eq (iota .tc S1024x1280 32 [1] iota_S1024x1280_d1_w32 (ix2 p k) + BitVec.ofNat 32 (i 1).val * 1280#32)
      (broadcastTo S1024x1280 (shapeCast S1024x1 lab shapeCasts_S1024x1_S1024x1) broadcasts_S1024x1_S1024x1280 (ix2 p k)))
      (x (ix2 p k)) (Ideal.ofBits .f32 0x00000000#32) = _
  rw [h1, h2, Ideal.ofBits_zero_f32]

theorem col_word_eq (k : Fin 1280) (j : ℕ) (hj : j < 25) (w : BitVec 32) :
    IntOp.cmpi .eq (BitVec.ofNat 32 k.val + BitVec.ofNat 32 j * 1280#32) w = 1#1 ↔ 1280 * j + k.val = w.toNat := by
  have hk := k.isLt
  have hW : (BitVec.ofNat 32 k.val + BitVec.ofNat 32 j * 1280#32).toNat = 1280 * j + k.val := by
    simp only [BitVec.toNat_add, BitVec.toNat_mul, BitVec.toNat_ofNat]
    omega
  rw [StableHlo.Predicate.cmpi_eq_iff, ← BitVec.toNat_inj, hW]

theorem pick_at (k : Fin 1280) (j : ℕ) (hj : j < 25) (w : BitVec 32) (r : ℝ) :
    Scalar.select (IntOp.cmpi .eq (BitVec.ofNat 32 k.val + BitVec.ofNat 32 j * 1280#32) w) ((r : ℝ) : EReal) (0 : EReal)
      = (((if 1280 * j + k.val = w.toNat then r else 0 : ℝ)) : EReal) := by
  by_cases h : 1280 * j + k.val = w.toNat
  · rw [(col_word_eq k j hj w).2 h, select_one, if_pos h]
  · have hc : IntOp.cmpi .eq (BitVec.ofNat 32 k.val + BitVec.ofNat 32 j * 1280#32) w = 0#1 :=
      eq_zero_of_ne_one (fun hc => h ((col_word_eq k j hj w).1 hc))
    rw [hc, select_zero, if_neg h, EReal.coe_zero]

end Cert.KernelIdeal.Ce

end
-- ==== Proof.Spec.lean ====
/- The common value: the mean over non-ignored rows of log(sum_k exp x_k) - x_label, plus the square root of the sum over row pairs of exp(-dist)^2. -/
import Idealize.ShloMosaic.PureOps
import Idealize.ShloMosaic.PureOps.Ideal
import Idealize.ShloMosaic.PureOps.Ideal.Laws
import Idealize.ShloMosaic.Lib.StableHlo
import Idealize.ShloMosaic.Lib.ValueIdx
import proofs.«410698_j38302518346315_1_alg».proof.Proof.LibEReal

noncomputable section

open scoped BigOperators

namespace Cert.Spec

open Idealize.ShloMosaic Idealize.ShloMosaic.ValueIdx

abbrev S8192x32000 : Shape := ⟨2, ![8192, 32000]⟩
abbrev S8192 : Shape := ⟨1, ![8192]⟩
abbrev S8192x512 : Shape := ⟨2, ![8192, 512]⟩
abbrev S_ : Shape := ⟨0, ![]⟩

theorem bcast_S_S8192 : S_.BroadcastsInDim S8192 (![] : Fin 0 → Fin S8192.rank) := by decide
theorem reducesTo_S8192_S_d0 : S8192.ReducesTo [0] S_ := by decide
theorem h_S_ : 0 < S_.numel := by decide
theorem natLt_1_32 : 1 < 32 := by decide

def FinLogits (a0 : FVec Ideal S8192x32000 .f32) : Prop := ∀ i, a0 i ≠ ⊤ ∧ a0 i ≠ ⊥

def FinQuery (a2 : FVec Ideal S8192x512 .f32) : Prop := ∀ i, a2 i ≠ ⊤ ∧ a2 i ≠ ⊥

def LabelOk (a1 : IVec S8192 32) : Prop := ∀ r : Fin 8192, (a1 (ix1 r)).toNat < 32000 ∨ a1 (ix1 r) = 4294967196#32

def X (a0 : FVec Ideal S8192x32000 .f32) (r : Fin 8192) (k : Fin 32000) : ℝ := (a0 (ix2 r k)).toReal

def Qr (a2 : FVec Ideal S8192x512 .f32) (i : Fin 8192) (k : Fin 512) : ℝ := (a2 (ix2 i k)).toReal

theorem logit_eq {a0 : FVec Ideal S8192x32000 .f32} (h : FinLogits a0) (r : Fin 8192) (k : Fin 32000) :
    a0 (ix2 r k) = ((X a0 r k : ℝ) : EReal) := (EReal.coe_toReal (h _).1 (h _).2).symm
theorem query_eq {a2 : FVec Ideal S8192x512 .f32} (h : FinQuery a2) (i : Fin 8192) (k : Fin 512) :
    a2 (ix2 i k) = ((Qr a2 i k : ℝ) : EReal) := (EReal.coe_toReal (h _).1 (h _).2).symm

def lse (x : Fin 32000 → ℝ) : ℝ := Real.log (∑ k, Real.exp (x k))

def nllR (a0 : FVec Ideal S8192x32000 .f32) (r : Fin 8192) (k : Fin 32000) : ℝ := lse (X a0 r) - X a0 r k

def sqn (a2 : FVec Ideal S8192x512 .f32) (i : Fin 8192) : ℝ := ∑ k, Qr a2 i k * Qr a2 i k
def gram (a2 : FVec Ideal S8192x512 .f32) (i j : Fin 8192) : ℝ := ∑ k, Qr a2 i k * Qr a2 j k

def d2 (a2 : FVec Ideal S8192x512 .f32) (i j : Fin 8192) : ℝ := max (sqn a2 i + sqn a2 j - 2 * gram a2 i j) 0
def distR (a2 : FVec Ideal S8192x512 .f32) (i j : Fin 8192) : ℝ := if 0 < d2 a2 i j then Real.sqrt (d2 a2 i j) else 0
def simR (a2 : FVec Ideal S8192x512 .f32) (i j : Fin 8192) : ℝ := Real.exp (-(distR a2 i j))

def totR (a2 : FVec Ideal S8192x512 .f32) : ℝ := ∑ i, ∑ j, simR a2 i j * simR a2 i j

def nllSpec (a0 : FVec Ideal S8192x32000 .f32) (a1 : IVec S8192 32) : FVec Ideal S8192 .f32 :=
  fun i => if h : (a1 i).toNat < 32000 then ((nllR a0 (i 0) ⟨(a1 i).toNat, h⟩ : ℝ) : EReal) else 0

def totSpec (a2 : FVec Ideal S8192x512 .f32) : FVec Ideal S_ .f32 := fun _ => ((totR a2 : ℝ) : EReal)

def validMask (a1 : IVec S8192 32) : IVec S8192 1 :=
  cmpi .ne a1 (broadcastInDim S8192 ![] bcast_S_S8192 (constantI S_ 32 4294967196#32))

def numValid (a1 : IVec S8192 32) : FVec Ideal S_ .f32 :=
  sitofp (F := Ideal) .f32 (maxsi (Host.reduce IntOp.addi (extui 32 (validMask a1) natLt_1_32) (constantI S_ 32 0#32) reducesTo_S8192_S_d0 h_S_) (constantI S_ 32 1#32))

def masked (a1 : IVec S8192 32) (nllv : FVec Ideal S8192 .f32) : FVec Ideal S8192 .f32 :=
  select (validMask a1) nllv (broadcastInDim S8192 ![] bcast_S_S8192 (id (constant (F := Ideal) S_ .f32 0x00000000#32)))

def ceOf (a1 : IVec S8192 32) (nllv : FVec Ideal S8192 .f32) : FVec Ideal S_ .f32 :=
  Host.divf (F := Ideal) (Host.reduceAdd (F := Ideal) (masked a1 nllv) (constant (F := Ideal) S_ .f32 0x00000000#32) reducesTo_S8192_S_d0 h_S_) (numValid a1)

def resOf (a1 : IVec S8192 32) (nllv : FVec Ideal S8192 .f32) (totv : FVec Ideal S_ .f32) : FVec Ideal S_ .f32 :=
  addf (F := Ideal) (ceOf a1 nllv) (Host.sqrt (F := Ideal) totv)

theorem masked_congr (a1 : IVec S8192 32) (v v' : FVec Ideal S8192 .f32)
    (h : ∀ i, a1 i ≠ 4294967196#32 → v i = v' i) : masked a1 v = masked a1 v' := by
  funext i
  show Scalar.select (IntOp.cmpi .ne (a1 i) 4294967196#32) (v i) _
    = Scalar.select (IntOp.cmpi .ne (a1 i) 4294967196#32) (v' i) _
  by_cases hi : a1 i = 4294967196#32
  · have hc : IntOp.cmpi .ne (a1 i) 4294967196#32 = 0#1 := by rw [hi]; decide
    rw [hc, select_zero, select_zero]
  · rw [h i hi]

theorem resOf_congr (a1 : IVec S8192 32) (v v' : FVec Ideal S8192 .f32) (t : FVec Ideal S_ .f32)
    (h : ∀ i, a1 i ≠ 4294967196#32 → v i = v' i) : resOf a1 v t = resOf a1 v' t := by
  unfold resOf ceOf; rw [masked_congr a1 v v' h]

def result (a0 : FVec Ideal S8192x32000 .f32) (a1 : IVec S8192 32) (a2 : FVec Ideal S8192x512 .f32) : FVec Ideal S_ .f32 :=
  resOf a1 (nllSpec a0 a1) (totSpec a2)

end Cert.Spec

end
-- ==== Proof.LibStream.lean ====
/- Streaming log-sum-exp: the state (m, l) keeps l * exp m = the sum of the exponentials seen, for any real m; sums taken block by block. -/
import Idealize.ShloMosaic.PureOps.Ideal
import Idealize.ShloMosaic.PureOps.Ideal.Laws
import proofs.«410698_j38302518346315_1_alg».proof.Proof.LibEReal

noncomputable section

open scoped BigOperators

namespace Cert.LibStream

open Idealize.ShloMosaic

def Inv (m l : EReal) (S : ℝ) : Prop :=
  (m = ⊥ ∧ l = 0 ∧ S = 0) ∨ ∃ mr lr : ℝ, m = ((mr : ℝ) : EReal) ∧ l = ((lr : ℝ) : EReal) ∧ lr * Real.exp mr = S

theorem inv_init : Inv ⊥ 0 0 := Or.inl ⟨rfl, rfl, rfl⟩

def blockMax {n : ℕ} (xs : Fin n → ℝ) : EReal := (Finset.univ : Finset (Fin n)).fold max (⊥ : EReal) (fun k => ((xs k : ℝ) : EReal))

theorem inv_step {n : ℕ} [NeZero n] (m l : EReal) (S : ℝ) (h : Inv m l S) (xs : Fin n → ℝ) :
    ∃ mr lr : ℝ, max m (blockMax xs) = ((mr : ℝ) : EReal)
      ∧ l * Ideal.exp (m - max m (blockMax xs)) + ∑ k, Ideal.exp (((xs k : ℝ) : EReal) - max m (blockMax xs)) = ((lr : ℝ) : EReal)
      ∧ lr * Real.exp mr = S + ∑ k, Real.exp (xs k) := by
  haveI : Nonempty (Fin n) := ⟨⟨0, Nat.pos_of_ne_zero (NeZero.ne n)⟩⟩
  obtain ⟨M, hM⟩ : ∃ M : ℝ, blockMax xs = ((M : ℝ) : EReal) := ⟨_, Cert.LibEReal.fold_max_bot_coe xs⟩
  have hsum : ∀ c : ℝ, (∑ k, Ideal.exp (((xs k : ℝ) : EReal) - ((c : ℝ) : EReal)))
      = ((∑ k, Real.exp (xs k - c) : ℝ) : EReal) := by
    intro c
    rw [← Cert.LibEReal.coe_sum]
    refine Finset.sum_congr rfl (fun k _ => ?_)
    rw [← EReal.coe_sub, Cert.LibEReal.exp_coe]
  have hshift : ∀ c : ℝ, (∑ k, Real.exp (xs k - c)) * Real.exp c = ∑ k, Real.exp (xs k) := by
    intro c
    rw [Finset.sum_mul]
    refine Finset.sum_congr rfl (fun k _ => ?_)
    rw [← Real.exp_add, sub_add_cancel]
  rw [hM]
  rcases h with ⟨hm, hl, hS⟩ | ⟨mr, lr, hm, hl, hS⟩
  · subst hm hl hS
    refine ⟨M, ∑ k, Real.exp (xs k - M), max_eq_right bot_le, ?_, ?_⟩
    · rw [max_eq_right bot_le, hsum, zero_mul, zero_add]
    · rw [hshift, zero_add]
  · subst hm hl
    refine ⟨max mr M, lr * Real.exp (mr - max mr M) + ∑ k, Real.exp (xs k - max mr M),
      Cert.LibEReal.max_coe mr M, ?_, ?_⟩
    · rw [Cert.LibEReal.max_coe, hsum, ← EReal.coe_sub, Cert.LibEReal.exp_coe, ← EReal.coe_mul, ← EReal.coe_add]
    · rw [add_mul, hshift, mul_assoc, ← Real.exp_add, sub_add_cancel, hS]

theorem inv_step' {n : ℕ} [NeZero n] (m l : EReal) (S : ℝ) (h : Inv m l S) (xs : Fin n → ℝ) :
    Inv (max m (blockMax xs))
      (l * Ideal.exp (m - max m (blockMax xs)) + ∑ k, Ideal.exp (((xs k : ℝ) : EReal) - max m (blockMax xs)))
      (S + ∑ k, Real.exp (xs k)) := by
  obtain ⟨mr, lr, h1, h2, h3⟩ := inv_step m l S h xs
  exact Or.inr ⟨mr, lr, h1, h2, h3⟩

theorem inv_final (m l : EReal) (S : ℝ) (h : Inv m l S) (hS : 0 < S) : m + Ideal.log l = ((Real.log S : ℝ) : EReal) := by
  rcases h with ⟨_, _, hS0⟩ | ⟨mr, lr, hm, hl, hS'⟩
  · exact absurd hS0 (ne_of_gt hS)
  · subst hm hl
    have hlr : 0 < lr := by
      by_contra hle
      have : lr * Real.exp mr ≤ 0 := mul_nonpos_of_nonpos_of_nonneg (not_lt.1 hle) (Real.exp_pos mr).le
      linarith
    rw [Ideal.log_coe, if_neg (not_le.2 hlr), ← EReal.coe_add, ← hS', Real.log_mul (ne_of_gt hlr) (Real.exp_pos mr).ne',
      Real.log_exp, add_comm]

theorem sum_block_succ {N B : ℕ} (f : Fin N → ℝ) (j : ℕ) (h : B * (j + 1) ≤ N) :
    (∑ k ∈ Finset.univ.filter (fun k : Fin N => k.val < B * (j + 1)), f k)
      = (∑ k ∈ Finset.univ.filter (fun k : Fin N => k.val < B * j), f k)
        + ∑ k' : Fin B, f ⟨B * j + k'.val, by have := k'.isLt; nlinarith⟩ := by
  classical
  have e : B * (j + 1) = B * j + B := Nat.mul_succ B j
  have hsplit : Finset.univ.filter (fun k : Fin N => k.val < B * (j + 1))
      = Finset.univ.filter (fun k : Fin N => k.val < B * j)
        ∪ Finset.univ.filter (fun k : Fin N => B * j ≤ k.val ∧ k.val < B * j + B) := by
    ext k
    simp only [Finset.mem_filter, Finset.mem_univ, true_and, Finset.mem_union]
    omega
  have hdisj : Disjoint (Finset.univ.filter (fun k : Fin N => k.val < B * j))
      (Finset.univ.filter (fun k : Fin N => B * j ≤ k.val ∧ k.val < B * j + B)) := by
    rw [Finset.disjoint_filter]
    intro k _ h1 h2
    omega
  rw [hsplit, Finset.sum_union hdisj]
  congr 1
  symm
  refine Finset.sum_bij (fun (k' : Fin B) _ => (⟨B * j + k'.val, by have := k'.isLt; omega⟩ : Fin N)) ?_ ?_ ?_ ?_
  · intro k' _
    have := k'.isLt
    simp only [Finset.mem_filter, Finset.mem_univ, true_and]
    omega
  · intro a _ b _ hab
    simp only [Fin.mk.injEq] at hab
    exact Fin.ext (by omega)
  · intro k hk
    simp only [Finset.mem_filter, Finset.mem_univ, true_and] at hk
    exact ⟨⟨k.val - B * j, by omega⟩, Finset.mem_univ _, Fin.ext (by simp only []; omega)⟩
  · intro k' _
    rfl

theorem sum_block_all {N B n : ℕ} (f : Fin N → ℝ) (h : N = B * n) :
    (∑ k ∈ Finset.univ.filter (fun k : Fin N => k.val < B * n), f k) = ∑ k, f k := by
  rw [Finset.filter_true_of_mem (fun k _ => k.isLt.trans_eq h)]

private theorem pos_of_lt_sq {n t : ℕ} (ht : t < n * n) : 0 < n := by
  rcases Nat.eq_zero_or_pos n with h0 | h0
  · subst h0; exact absurd ht (by simp)
  · exact h0

private theorem block_bound {N B n : ℕ} (hN : N = B * n) {q : ℕ} (hq : q < n) (a : Fin B) : B * q + a.val < N := by
  have ha := a.isLt
  have h1 : B * (q + 1) ≤ B * n := Nat.mul_le_mul_left B hq
  have e : B * (q + 1) = B * q + B := Nat.mul_succ B q
  omega

private theorem sum_div_eq {N B n : ℕ} (hN : N = B * n) (hB : 0 < B) (F : Fin N → ℝ) (q : ℕ) (hq : q < n) :
    (∑ I : Fin N, if I.val / B = q then F I else 0) = ∑ a : Fin B, F ⟨B * q + a.val, block_bound hN hq a⟩ := by
  classical
  rw [← Finset.sum_filter]
  symm
  refine Finset.sum_bij (fun (a : Fin B) _ => (⟨B * q + a.val, block_bound hN hq a⟩ : Fin N)) ?_ ?_ ?_ ?_
  · intro a _
    simp only [Finset.mem_filter, Finset.mem_univ, true_and]
    rw [Nat.mul_add_div hB, Nat.div_eq_of_lt a.isLt, add_zero]
  · intro a _ b _ hab
    simp only [Fin.mk.injEq] at hab
    exact Fin.ext (by omega)
  · intro I hI
    simp only [Finset.mem_filter, Finset.mem_univ, true_and] at hI
    refine ⟨⟨I.val % B, Nat.mod_lt _ hB⟩, Finset.mem_univ _, Fin.ext ?_⟩
    have := Nat.div_add_mod I.val B
    rw [hI] at this
    exact this
  · intro a _
    rfl

theorem sum_tile_succ {N B n : ℕ} (hN : N = B * n) (hB : 0 < B) (g : Fin N → Fin N → ℝ) (t : ℕ) (ht : t < n * n) :
    (∑ I : Fin N, ∑ J : Fin N, if (I.val / B) * n + J.val / B < t + 1 then g I J else 0)
      = (∑ I : Fin N, ∑ J : Fin N, if (I.val / B) * n + J.val / B < t then g I J else 0)
        + ∑ a : Fin B, ∑ b : Fin B, g ⟨B * (t / n) + a.val, block_bound hN (Nat.div_lt_of_lt_mul ht) a⟩
            ⟨B * (t % n) + b.val, block_bound hN (Nat.mod_lt t (pos_of_lt_sq ht)) b⟩ := by
  have hn : 0 < n := pos_of_lt_sq ht
  have hq : t / n < n := Nat.div_lt_of_lt_mul ht
  have hr : t % n < n := Nat.mod_lt t hn
  have key : ∀ I J : Fin N, ((I.val / B) * n + J.val / B = t) ↔ (I.val / B = t / n ∧ J.val / B = t % n) := by
    intro I J
    have hJ : J.val / B < n := Nat.div_lt_of_lt_mul (J.isLt.trans_eq hN)
    constructor
    · intro e
      rw [← e]
      constructor
      · rw [Nat.mul_comm, Nat.mul_add_div hn, Nat.div_eq_of_lt hJ, add_zero]
      · rw [Nat.mul_comm, Nat.mul_add_mod, Nat.mod_eq_of_lt hJ]
    · rintro ⟨e1, e2⟩
      rw [e1, e2, Nat.mul_comm]
      exact Nat.div_add_mod t n
  have split : ∀ (c : ℕ) (x : ℝ), (if c < t + 1 then x else 0) = (if c < t then x else 0) + (if c = t then x else 0) := by
    intro c x
    rcases Nat.lt_trichotomy c t with h | h | h
    · rw [if_pos (by omega), if_pos h, if_neg (by omega), add_zero]
    · rw [if_pos (by omega), if_neg (by omega), if_pos h, zero_add]
    · rw [if_neg (by omega), if_neg (by omega), if_neg (by omega), add_zero]
  simp only [split, Finset.sum_add_distrib, key, ite_and]
  congr 1
  calc (∑ I : Fin N, ∑ J : Fin N, if I.val / B = t / n then (if J.val / B = t % n then g I J else 0) else 0)
      = ∑ I : Fin N, if I.val / B = t / n then (∑ J : Fin N, if J.val / B = t % n then g I J else 0) else 0 := by
        refine Finset.sum_congr rfl (fun I _ => ?_)
        by_cases hI : I.val / B = t / n
        · simp only [if_pos hI]
        · simp only [if_neg hI, Finset.sum_const_zero]
    _ = ∑ a : Fin B, ∑ J : Fin N, if J.val / B = t % n then g ⟨B * (t / n) + a.val, block_bound hN hq a⟩ J else 0 :=
        sum_div_eq hN hB _ (t / n) hq
    _ = _ := by
        refine Finset.sum_congr rfl (fun a _ => ?_)
        exact sum_div_eq hN hB _ (t % n) hr

theorem sum_tile_all {N B n : ℕ} (hN : N = B * n) (hB : 0 < B) (g : Fin N → Fin N → ℝ) :
    (∑ I : Fin N, ∑ J : Fin N, if (I.val / B) * n + J.val / B < n * n then g I J else 0) = ∑ I, ∑ J, g I J := by
  have hlt : ∀ I J : Fin N, (I.val / B) * n + J.val / B < n * n := by
    intro I J
    have hI : I.val / B < n := Nat.div_lt_of_lt_mul (I.isLt.trans_eq hN)
    have hJ : J.val / B < n := Nat.div_lt_of_lt_mul (J.isLt.trans_eq hN)
    calc (I.val / B) * n + J.val / B < (I.val / B) * n + n := by omega
      _ = (I.val / B + 1) * n := (Nat.succ_mul _ _).symm
      _ ≤ n * n := Nat.mul_le_mul_right n hI
  simp only [hlt, if_true]

theorem sum_pick {N : ℕ} (f : Fin N → ℝ) (L : ℕ) :
    (∑ k : Fin N, if k.val = L then f k else 0) = if h : L < N then f ⟨L, h⟩ else 0 := by
  classical
  by_cases h : L < N
  · rw [dif_pos h, Finset.sum_eq_single (⟨L, h⟩ : Fin N)]
    · rw [if_pos rfl]
    · intro k _ hk
      rw [if_neg (fun e => hk (Fin.ext e))]
    · intro hn
      exact absurd (Finset.mem_univ _) hn
  · rw [dif_neg h]
    refine Finset.sum_eq_zero (fun k _ => ?_)
    rw [if_neg (show ¬ (k.val = L) from fun e => h (e ▸ k.isLt))]

end Cert.LibStream

end
-- ==== Proof.CeValue.lean ====
/- By induction over the column blocks the accumulators hold the streaming state of the columns seen, so the last block stores lse x - x_label. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.CeData
import proofs.«410698_j38302518346315_1_alg».proof.Proof.CePay
import proofs.«410698_j38302518346315_1_alg».proof.Proof.Spec
import proofs.«410698_j38302518346315_1_alg».proof.Proof.LibStream
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

open scoped BigOperators

namespace Cert.KernelIdeal.Ce

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

def Sexp (Xr : Fin 8192 → Fin 32000 → ℝ) (r : Fin 8192) (n : ℕ) : ℝ :=
  ∑ k ∈ Finset.univ.filter (fun k : Fin 32000 => k.val < n), Real.exp (Xr r k)
def Spick (Xr : Fin 8192 → Fin 32000 → ℝ) (lab : Fin 8192 → BitVec 32) (r : Fin 8192) (n : ℕ) : ℝ :=
  ∑ k ∈ Finset.univ.filter (fun k : Fin 32000 => k.val < n), (if k.val = (lab r).toNat then Xr r k else 0)

def Acc (Xr : Fin 8192 → Fin 32000 → ℝ) (lab : Fin 8192 → BitVec 32) (r : Fin 8192) (n : ℕ) (s : St Ideal) (p : Fin 1024) : Prop :=
  Cert.LibStream.Inv (s.1 (ix2 p (0 : Fin 1))) (s.2.1 (ix2 p (0 : Fin 1))) (Sexp Xr r n)
    ∧ s.2.2 (ix2 p (0 : Fin 1)) = ((Spick Xr lab r n : ℝ) : EReal)

theorem coord1 : ∀ t : Fin cfg0.N, ((grid0.coords t) 1).val = t.val % 25 :=
  (by decide +kernel : ∀ t : Fin grid0.N, ((grid0.coords t) 1).val = t.val % 25)

theorem acc_init (Xr : Fin 8192 → Fin 32000 → ℝ) (lab : Fin 8192 → BitVec 32) (r : Fin 8192) (p : Fin 1024) :
    Acc Xr lab r 0 (stInit (F := Ideal)) p := by
  have e0 : ∀ f : Fin 32000 → ℝ, (∑ k ∈ Finset.univ.filter (fun k : Fin 32000 => k.val < 0), f k) = 0 := by
    intro f
    rw [Finset.filter_false_of_mem (fun k _ => Nat.not_lt_zero _), Finset.sum_empty]
  refine ⟨?_, ?_⟩
  · show Cert.LibStream.Inv (k0_pay3 (F := Ideal) (ix2 p 0)) (k0_pay4 (F := Ideal) (ix2 p 0)) (Sexp Xr r 0)
    rw [pay3_at, pay4_at]
    unfold Sexp
    rw [e0]
    exact Cert.LibStream.inv_init
  · show k0_pay5 (F := Ideal) (ix2 p 0) = _
    rw [pay5_at]
    unfold Spick
    rw [e0, EReal.coe_zero]

section Step

variable (c : Dev nD) (Xr : Fin 8192 → Fin 32000 → ℝ) (lab : Fin 8192 → BitVec 32)
  (hx : ∀ (t : Fin cfg0.N) (p : Fin 1024) (k : Fin 1280), xblk (F := Ideal) V c t (ix2 p k) = ((Xr (rowOf t p) (colOf t k) : ℝ) : EReal))
  (hl : ∀ (t : Fin cfg0.N) (p : Fin 1024), lblk (F := Ideal) V c t (ix2 p 0) = lab (rowOf t p))

include hx hl

theorem acc_step (t : Fin cfg0.N) (p : Fin 1024) (s0 : St Ideal)
    (h : Acc Xr lab (rowOf t p) (1280 * (t.val % 25)) s0 p) :
    Acc Xr lab (rowOf t p) (1280 * (t.val % 25 + 1)) (stStep V c t s0) p := by
  have hj : t.val % 25 < 25 := Nat.mod_lt _ (by decide)
  have hle : 1280 * (t.val % 25 + 1) ≤ 32000 := by omega
  obtain ⟨hI, hT⟩ := h
  have hbm : (Finset.univ : Finset (Fin 1280)).fold max (⊥ : EReal) (fun k => xblk V c t (ix2 p k))
      = Cert.LibStream.blockMax (fun k : Fin 1280 => Xr (rowOf t p) (colOf t k)) := by
    unfold Cert.LibStream.blockMax
    exact congrArg (fun f => Finset.fold max (⊥ : EReal) f (Finset.univ : Finset (Fin 1280))) (funext fun k => hx t p k)
  have hm : (stStep V c t s0).1 (ix2 p 0)
      = max (s0.1 (ix2 p 0)) (Cert.LibStream.blockMax (fun k : Fin 1280 => Xr (rowOf t p) (colOf t k))) := by
    show k0_pay8 (xblk V c t) s0.1 (ix2 p 0) = _
    rw [pay8_at, pay6_at, hbm]
  refine ⟨?_, ?_⟩
  · have hl' : (stStep V c t s0).2.1 (ix2 p 0)
        = s0.2.1 (ix2 p 0) * Ideal.exp (s0.1 (ix2 p 0) - max (s0.1 (ix2 p 0)) (Cert.LibStream.blockMax (fun k : Fin 1280 => Xr (rowOf t p) (colOf t k))))
          + ∑ k : Fin 1280, Ideal.exp (((Xr (rowOf t p) (colOf t k) : ℝ) : EReal) - max (s0.1 (ix2 p 0)) (Cert.LibStream.blockMax (fun k : Fin 1280 => Xr (rowOf t p) (colOf t k)))) := by
      show k0_pay7 (xblk V c t) s0.1 s0.2.1 (ix2 p 0) = _
      rw [pay7_at, pay6_at, hbm]
      exact congrArg _ (Finset.sum_congr rfl (fun k _ => by rw [hx t p k]))
    have hS : Sexp Xr (rowOf t p) (1280 * (t.val % 25 + 1))
        = Sexp Xr (rowOf t p) (1280 * (t.val % 25)) + ∑ k : Fin 1280, Real.exp (Xr (rowOf t p) (colOf t k)) :=
      Cert.LibStream.sum_block_succ (fun k => Real.exp (Xr (rowOf t p) k)) (t.val % 25) hle
    rw [hm, hl', hS]
    exact Cert.LibStream.inv_step' _ _ _ hI _
  · have hS : Spick Xr lab (rowOf t p) (1280 * (t.val % 25 + 1))
        = Spick Xr lab (rowOf t p) (1280 * (t.val % 25))
          + ∑ k : Fin 1280, (if 1280 * (t.val % 25) + k.val = (lab (rowOf t p)).toNat then Xr (rowOf t p) (colOf t k) else 0) :=
      Cert.LibStream.sum_block_succ (fun k => if k.val = (lab (rowOf t p)).toNat then Xr (rowOf t p) k else 0) (t.val % 25) hle
    show k0_pay1 (k0_pay9 (grid0.coords t) (xblk V c t) (lblk V c t)) s0.2.2 (ix2 p 0) = _
    rw [pay1_at, pay9_at, hT, hS, EReal.coe_add, ← Cert.LibEReal.coe_sum, coord1 t, hl t p]
    refine congrArg _ (Finset.sum_congr rfl (fun k _ => ?_))
    rw [hx t p k]
    exact pick_at k _ hj _ _

theorem acc_all : ∀ (n : ℕ) (hn : n < cfg0.N) (p : Fin 1024),
    Acc Xr lab (rowOf ⟨n, hn⟩ p) (1280 * (n % 25 + 1)) (stAt V c n hn) p := by
  intro n
  induction n with
  | zero =>
    intro hn p
    have e : stAt V c 0 hn = stStep V c ⟨0, hn⟩ (stFound V c ⟨0, hn⟩) := stAt_eq V c ⟨0, hn⟩
    rw [e]
    refine acc_step V c Xr lab hx hl ⟨0, hn⟩ p _ ?_
    have hf : stFound V c ⟨0, hn⟩ = stInit := by unfold stFound; exact dif_pos rfl
    rw [hf]
    exact acc_init Xr lab _ p
  | succ n ih =>
    intro hn p
    have e : stAt V c (n + 1) hn = stStep V c ⟨n + 1, hn⟩ (stFound V c ⟨n + 1, hn⟩) := stAt_eq V c ⟨n + 1, hn⟩
    rw [e]
    refine acc_step V c Xr lab hx hl ⟨n + 1, hn⟩ p _ ?_
    show Acc Xr lab (rowOf ⟨n + 1, hn⟩ p) (1280 * ((n + 1) % 25)) (stFound V c ⟨n + 1, hn⟩) p
    by_cases h0 : (n + 1) % 25 = 0
    · have hf : stFound V c ⟨n + 1, hn⟩ = stInit := by unfold stFound; exact dif_pos h0
      rw [hf, h0]
      exact acc_init Xr lab _ p
    · have hf : stFound V c ⟨n + 1, hn⟩ = stAt V c n (Nat.lt_of_succ_lt hn) := by unfold stFound; exact dif_neg h0
      have hrow : rowOf ⟨n + 1, hn⟩ p = rowOf ⟨n, Nat.lt_of_succ_lt hn⟩ p :=
        Fin.ext (by show 1024 * ((n + 1) / 25) + p.val = 1024 * (n / 25) + p.val; omega)
      have hcol : (n + 1) % 25 = n % 25 + 1 := by omega
      rw [hf, hrow, hcol]
      exact ih _ p

end Step

theorem outAt_value (c : Dev nD) (Xr : Fin 8192 → Fin 32000 → ℝ) (lab : Fin 8192 → BitVec 32)
    (hx : ∀ (t : Fin cfg0.N) (p : Fin 1024) (k : Fin 1280), xblk (F := Ideal) V c t (ix2 p k) = ((Xr (rowOf t p) (colOf t k) : ℝ) : EReal))
    (hl : ∀ (t : Fin cfg0.N) (p : Fin 1024), lblk (F := Ideal) V c t (ix2 p 0) = lab (rowOf t p))
    (t : Fin cfg0.N) (ht : t.val % 25 = 24) (p : Fin 1024) (hL : (lab (rowOf t p)).toNat < 32000) :
    outAt (F := Ideal) V c t (ix2 p 0)
      = ((Cert.Spec.lse (Xr (rowOf t p)) - Xr (rowOf t p) ⟨(lab (rowOf t p)).toNat, hL⟩ : ℝ) : EReal) := by
  have hA : Acc Xr lab (rowOf t p) (1280 * 25) (stStep V c t (stFound V c t)) p := by
    have h := acc_all V c Xr lab hx hl t.val t.isLt p
    rw [stAt_eq V c t, ht] at h
    exact h
  obtain ⟨hI, hT⟩ := hA
  have hall : ∀ f : Fin 32000 → ℝ, (∑ k ∈ Finset.univ.filter (fun k : Fin 32000 => k.val < 1280 * 25), f k) = ∑ k, f k :=
    fun f => Cert.LibStream.sum_block_all f (by norm_num)
  have hSe : Sexp Xr (rowOf t p) (1280 * 25) = ∑ k, Real.exp (Xr (rowOf t p) k) := hall _
  have hSp : Spick Xr lab (rowOf t p) (1280 * 25) = Xr (rowOf t p) ⟨(lab (rowOf t p)).toNat, hL⟩ := by
    unfold Spick
    rw [hall, Cert.LibStream.sum_pick, dif_pos hL]
  have hpos : 0 < Sexp Xr (rowOf t p) (1280 * 25) := by
    rw [hSe]
    exact Finset.sum_pos (fun k _ => Real.exp_pos _) ⟨⟨0, by norm_num⟩, Finset.mem_univ _⟩
  have hlse := Cert.LibStream.inv_final _ _ _ hI hpos
  show k0_pay2 (stStep V c t (stFound V c t)).1 (stStep V c t (stFound V c t)).2.1 (stStep V c t (stFound V c t)).2.2 (ix2 p 0) = _
  rw [pay2_at, hlse, hT, hSe, hSp, ← EReal.coe_sub]
  rfl

end Cert.KernelIdeal.Ce

end
-- ==== Proof.PenPay.lean ====
/- The penalty body's arithmetic read at one index: for real rows the tile entry is the real similarity. -/
import proofs.«410698_j38302518346315_1_alg».proof.Proof.Gen.KernelIdeal.Skeleton
import proofs.«410698_j38302518346315_1_alg».proof.Proof.Spec
import proofs.«410698_j38302518346315_1_alg».proof.Proof.LibEReal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Pen

open Idealize.ShloMosaic Idealize.ShloMosaic.ValueIdx
open Cert.KernelIdeal Cert.KernelIdeal.Gen

theorem lhs_ax0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_ax1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_ax0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_ax1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

theorem prod_apply (x : FVec Ideal S1024x512 .bf16) (y : FVec Ideal S512x1024 .bf16) (a b : Fin 1024) :
    matmul (F := Ideal) dot_S1024x512_S512x1024_S1024x1024_1_0_0_1_n_n none x y (constant (F := Ideal) S1024x1024 .f32 0x00000000#32) (ix2 a b)
      = ∑ k : Fin 512, x (ix2 a k) * y (ix2 k b) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 a b) ((contrEquiv1 dot_S1024x512_S512x1024_S1024x1024_1_0_0_1_n_n 512 rfl rfl).symm k) = ix2 a k := funext fun c => Fin.ext (by
    match c with
    | ⟨0, _⟩ => exact lhs_ax0 _ _
    | ⟨1, _⟩ => exact (lhs_ax1 _ _).trans hk)
  have er : dot_S1024x512_S512x1024_S1024x1024_1_0_0_1_n_n.rhsIdx (ix2 a b) ((contrEquiv1 dot_S1024x512_S512x1024_S1024x1024_1_0_0_1_n_n 512 rfl rfl).symm k) = ix2 k b := funext fun c => Fin.ext (by
    match c with
    | ⟨0, _⟩ => exact (rhs_ax0 _ _).trans hk
    | ⟨1, _⟩ => exact rhs_ax1 _ _)
  rw [el, er]

theorem sim_scalar (n n' g : ℝ) :
    Ideal.exp (Ideal.div (Ideal.ofBits .f32 0x00000000#32
        - Scalar.select (Ideal.cmp .ogt (max (((n : ℝ) : EReal) + ((n' : ℝ) : EReal) - Ideal.ofBits .f32 0x40000000#32 * ((g : ℝ) : EReal)) (Ideal.ofBits .f32 0x00000000#32)) (Ideal.ofBits .f32 0x00000000#32))
            (Ideal.sqrt (Scalar.select (Ideal.cmp .ogt (max (((n : ℝ) : EReal) + ((n' : ℝ) : EReal) - Ideal.ofBits .f32 0x40000000#32 * ((g : ℝ) : EReal)) (Ideal.ofBits .f32 0x00000000#32)) (Ideal.ofBits .f32 0x00000000#32))
                (max (((n : ℝ) : EReal) + ((n' : ℝ) : EReal) - Ideal.ofBits .f32 0x40000000#32 * ((g : ℝ) : EReal)) (Ideal.ofBits .f32 0x00000000#32)) (Ideal.ofBits .f32 0x3F800000#32)))
            (Ideal.ofBits .f32 0x00000000#32)) (Ideal.ofBits .f32 0x3F800000#32))
      = ((Real.exp (-(if 0 < max (n + n' - 2 * g) 0 then Real.sqrt (max (n + n' - 2 * g) 0) else 0)) : ℝ) : EReal) := by
  rw [Cert.LibEReal.ofBits_two, Cert.LibEReal.ofBits_one, Ideal.ofBits_zero_f32]
  have hm : max (((n : ℝ) : EReal) + ((n' : ℝ) : EReal) - ((2 : ℝ) : EReal) * ((g : ℝ) : EReal)) 0 = ((max (n + n' - 2 * g) 0 : ℝ) : EReal) := by
    rw [← EReal.coe_mul, ← EReal.coe_add, ← EReal.coe_sub, ← EReal.coe_zero, Cert.LibEReal.max_coe]
  rw [hm]
  generalize max (n + n' - 2 * g) 0 = m
  have hc : Ideal.cmp .ogt ((m : ℝ) : EReal) 0 = if 0 < m then 1#1 else 0#1 := by
    unfold Ideal.cmp
    by_cases h : 0 < m
    · rw [if_pos h]; simp [h]
    · rw [if_neg h]; simp [h]
  rw [hc]
  by_cases h : 0 < m
  · rw [if_pos h, if_pos h, select_one, select_one, Cert.LibEReal.sqrt_coe h.le, ← EReal.coe_zero, ← EReal.coe_sub,
      Cert.LibEReal.div_coe_coe _ one_ne_zero, Cert.LibEReal.exp_coe, zero_sub, div_one]
  · rw [if_neg h, if_neg h, select_zero, ← EReal.coe_zero, ← EReal.coe_sub,
      Cert.LibEReal.div_coe_coe _ one_ne_zero, Cert.LibEReal.exp_coe, zero_sub, div_one]

theorem spreadCol_apply {α : Type} (v : S1024x1.Idx → α) (h : S1024x1.Broadcasts S1024x1024) (p c : Fin 1024) :
    broadcastTo S1024x1024 v h (ix2 p c) = v (ix2 p (0 : Fin 1)) := by
  refine broadcastTo_apply v h (ix2 p c) (ix2 p (0 : Fin 1)) fun ax => ?_
  match ax with
  | ⟨0, _⟩ =>
    show p.val = if (1024 : ℕ) = 1 then 0 else p.val
    rw [if_neg (by decide)]
  | ⟨1, _⟩ =>
    show 0 = if (1 : ℕ) = 1 then 0 else c.val
    rw [if_pos rfl]

theorem sim_apply (qi qj : Vec Ideal S1024x512 .bf16) (sr : Vec Ideal S1024x1 .f32) (sc : Vec Ideal S1x1024 .f32)
    (a b : Fin 1024) (A B : Fin 512 → ℝ) (n n' : ℝ)
    (hA : ∀ k : Fin 512, qi (ix2 a k) = ((A k : ℝ) : EReal)) (hB : ∀ k : Fin 512, qj (ix2 b k) = ((B k : ℝ) : EReal))
    (hn : sr (ix2 a (0 : Fin 1)) = ((n : ℝ) : EReal)) (hn' : sc (ix2 (0 : Fin 1) b) = ((n' : ℝ) : EReal)) :
    k1_pay3 (F := Ideal) qi qj sr sc (ix2 a b)
      = ((Real.exp (-(if 0 < max (n + n' - 2 * ∑ k, A k * B k) 0 then Real.sqrt (max (n + n' - 2 * ∑ k, A k * B k) 0) else 0)) : ℝ) : EReal) := by
  have hg : matmul (F := Ideal) (φ₁ := .bf16) (φ₂ := .bf16) dot_S1024x512_S512x1024_S1024x1024_1_0_0_1_n_n none
      (shapeCast S1024x512 qi shapeCasts_S1024x512_S1024x512)
      (transpose S512x1024 [1, 0] (shapeCast S1024x512 qj shapeCasts_S1024x512_S1024x512) transposes_S1024x512_p1_0_S512x1024)
      (constant (F := Ideal) S1024x1024 .f32 0x00000000#32) (ix2 a b) = ((∑ k, A k * B k : ℝ) : EReal) := by
    rw [prod_apply, ← Cert.LibEReal.coe_sum]
    refine Finset.sum_congr rfl fun k _ => ?_
    rw [shapeCast_self, shapeCast_self, transpose_ix2_apply, hA, hB, EReal.coe_mul]
  have hr : broadcastTo S1024x1024 (shapeCast S1024x1 sr shapeCasts_S1024x1_S1024x1) broadcasts_S1024x1_S1024x1024 (ix2 a b) = ((n : ℝ) : EReal) := by
    rw [spreadCol_apply, shapeCast_self, hn]
  have hc : broadcastTo S1024x1024 (shapeCast S1x1024 sc shapeCasts_S1x1024_S1x1024) broadcasts_S1x1024_S1024x1024 (ix2 a b) = ((n' : ℝ) : EReal) := by
    rw [broadcastTo_1b_ab_apply, shapeCast_self, hn']
  refine Eq.trans ?_ (sim_scalar n n' (∑ k, A k * B k))
  rw [← hg, ← hr, ← hc]
  rfl

theorem rowSum_apply (src : FVec Ideal S1024x1024 .f32) (hφ : FKind.Formats .f32)
    (hacc : (0x00000000#32 : BitVec 32) = FKind.add.neutral .f32 hφ) (a : Fin 1024) :
    multiReduction (F := Ideal) .add [1] S1024 src 0x00000000#32 reduces_S1024x1024_S1024 hφ hacc (ix1 a)
      = ∑ b : Fin 1024, src (ix2 a b) := by
  refine (Ideal.multiReduction_add_single src 0x00000000#32 reduces_S1024x1024_S1024 hφ hacc (ix1 a)).trans ?_
  refine Finset.sum_congr rfl fun b _ => congrArg src ?_
  funext c
  match c with
  | ⟨0, _⟩ => rfl
  | ⟨1, _⟩ => rfl

theorem colSum_apply (src : FVec Ideal S1024x1 .f32) (hφ : FKind.Formats .f32)
    (hacc : (0x00000000#32 : BitVec 32) = FKind.add.neutral .f32 hφ) :
    multiReduction (F := Ideal) .add [0] S1 src 0x00000000#32 reduces_S1024x1_S1 hφ hacc (ix1 (0 : Fin 1))
      = ∑ a : Fin 1024, src (ix2 a (0 : Fin 1)) := by
  refine (Ideal.multiReduction_add_single src 0x00000000#32 reduces_S1024x1_S1 hφ hacc (ix1 (0 : Fin 1))).trans ?_
  refine Finset.sum_congr rfl fun a _ => congrArg src ?_
  funext c
  match c with
  | ⟨0, _⟩ => rfl
  | ⟨1, _⟩ => rfl

theorem asCol_apply {α : Type} (x : S1024.Idx → α) (h : S1024.ShapeCasts S1024x1) (a : Fin 1024) (u : Fin 1) :
    shapeCast S1024x1 x h (ix2 a u) = x (ix1 a) :=
  shapeCast_apply x h _ _ (by
    have hu : u.val = 0 := by omega
    rw [Shape.rowMajor_val_two, Shape.rowMajor_val_one]
    show a.val = a.val * 1 + u.val
    rw [hu, Nat.mul_one, Nat.add_zero])

theorem acc_apply (v : FVec Ideal S1024x1024 .f32) (acc : Vec Ideal S1x1 .f32) :
    k1_pay1 (F := Ideal) v acc (ix2 (0 : Fin 1) (0 : Fin 1))
      = acc (ix2 (0 : Fin 1) (0 : Fin 1)) + ∑ a : Fin 1024, ∑ b : Fin 1024, v (ix2 a b) * v (ix2 a b) := by
  unfold k1_pay1
  dsimp only
  rw [shapeCast_self, addf_apply, shapeCast_a_1a_apply]
  refine congrArg (acc (ix2 (0 : Fin 1) (0 : Fin 1)) + ·) ?_
  refine (colSum_apply _ _ _).trans ?_
  refine Finset.sum_congr rfl fun a _ => ?_
  rw [asCol_apply]
  refine (rowSum_apply _ _ _ a).trans ?_
  rfl

theorem sim_spec (a2 : FVec Ideal Cert.Spec.S8192x512 .f32)
    (qi qj : Vec Ideal S1024x512 .bf16) (sr : Vec Ideal S1024x1 .f32) (sc : Vec Ideal S1x1024 .f32)
    (a b : Fin 1024) (I J : Fin 8192)
    (hA : ∀ k : Fin 512, qi (ix2 a k) = ((Cert.Spec.Qr a2 I k : ℝ) : EReal))
    (hB : ∀ k : Fin 512, qj (ix2 b k) = ((Cert.Spec.Qr a2 J k : ℝ) : EReal))
    (hn : sr (ix2 a (0 : Fin 1)) = ((Cert.Spec.sqn a2 I : ℝ) : EReal))
    (hn' : sc (ix2 (0 : Fin 1) b) = ((Cert.Spec.sqn a2 J : ℝ) : EReal)) :
    k1_pay3 (F := Ideal) qi qj sr sc (ix2 a b) = ((Cert.Spec.simR a2 I J : ℝ) : EReal) :=
  (sim_apply qi qj sr sc a b _ _ _ _ hA hB hn hn').trans rfl

theorem accNew_spec (a2 : FVec Ideal Cert.Spec.S8192x512 .f32)
    (qi qj : Vec Ideal S1024x512 .bf16) (sr : Vec Ideal S1024x1 .f32) (sc : Vec Ideal S1x1024 .f32)
    (acc0 : Vec Ideal S1x1 .f32) (s : ℝ) (R C : Fin 1024 → Fin 8192)
    (hA : ∀ (a : Fin 1024) (k : Fin 512), qi (ix2 a k) = ((Cert.Spec.Qr a2 (R a) k : ℝ) : EReal))
    (hB : ∀ (b : Fin 1024) (k : Fin 512), qj (ix2 b k) = ((Cert.Spec.Qr a2 (C b) k : ℝ) : EReal))
    (hn : ∀ a : Fin 1024, sr (ix2 a (0 : Fin 1)) = ((Cert.Spec.sqn a2 (R a) : ℝ) : EReal))
    (hn' : ∀ b : Fin 1024, sc (ix2 (0 : Fin 1) b) = ((Cert.Spec.sqn a2 (C b) : ℝ) : EReal))
    (h0 : acc0 (ix2 (0 : Fin 1) (0 : Fin 1)) = ((s : ℝ) : EReal)) :
    k1_pay1 (F := Ideal) (k1_pay3 (F := Ideal) qi qj sr sc) acc0 (ix2 (0 : Fin 1) (0 : Fin 1))
      = ((s + ∑ a : Fin 1024, ∑ b : Fin 1024, Cert.Spec.simR a2 (R a) (C b) * Cert.Spec.simR a2 (R a) (C b) : ℝ) : EReal) := by
  have hs : ∀ a b : Fin 1024, k1_pay3 (F := Ideal) qi qj sr sc (ix2 a b) * k1_pay3 (F := Ideal) qi qj sr sc (ix2 a b)
      = ((Cert.Spec.simR a2 (R a) (C b) * Cert.Spec.simR a2 (R a) (C b) : ℝ) : EReal) := fun a b => by
    rw [sim_spec a2 qi qj sr sc a b (R a) (C b) (hA a) (hB b) (hn a) (hn' b), ← EReal.coe_mul]
  rw [acc_apply, h0, EReal.coe_add]
  refine congrArg (((s : ℝ) : EReal) + ·) ?_
  rw [← Cert.LibEReal.coe_sum]
  refine Finset.sum_congr rfl fun a _ => ?_
  rw [← Cert.LibEReal.coe_sum]
  exact Finset.sum_congr rfl fun b _ => hs a b

theorem reset_apply : k1_pay2 (F := Ideal) (ix2 (0 : Fin 1) (0 : Fin 1)) = ((0 : ℝ) : EReal) := by
  unfold k1_pay2
  rw [shapeCast_self, broadcast_apply]
  exact Ideal.ofBits_zero_f32

end Cert.KernelIdeal.Pen

end
-- ==== Proof.PenValue.lean ====
/- By induction over the tiles the accumulator holds the sum over the tiles seen, so the last tile stores the sum over all pairs. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.PenData
import proofs.«410698_j38302518346315_1_alg».proof.Proof.PenPay
import proofs.«410698_j38302518346315_1_alg».proof.Proof.Spec
import proofs.«410698_j38302518346315_1_alg».proof.Proof.LibStream
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

open scoped BigOperators

namespace Cert.KernelIdeal.Pen

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

def partSum (a2 : FVec Ideal Cert.Spec.S8192x512 .f32) (t : ℕ) : ℝ :=
  ∑ I : Fin 8192, ∑ J : Fin 8192,
    if (I.val / 1024) * 8 + J.val / 1024 < t then Cert.Spec.simR a2 I J * Cert.Spec.simR a2 I J else 0

theorem partSum_zero (a2 : FVec Ideal Cert.Spec.S8192x512 .f32) : partSum a2 0 = 0 := by
  unfold partSum
  refine Finset.sum_eq_zero fun I _ => Finset.sum_eq_zero fun J _ => ?_
  rw [if_neg (Nat.not_lt_zero _)]

theorem partSum_succ (a2 : FVec Ideal Cert.Spec.S8192x512 .f32) (t : Fin cfg1.N) :
    partSum a2 (t.val + 1) = partSum a2 t.val
      + ∑ a : Fin 1024, ∑ b : Fin 1024, Cert.Spec.simR a2 (rowI t a) (rowJ t b) * Cert.Spec.simR a2 (rowI t a) (rowJ t b) := by
  have ht : t.val < 8 * 8 := by have := t.isLt; have h : cfg1.N = 64 := N_1; omega
  exact Cert.LibStream.sum_tile_succ (N := 8192) (B := 1024) (n := 8) rfl (by decide)
    (fun I J => Cert.Spec.simR a2 I J * Cert.Spec.simR a2 I J) t.val ht

theorem partSum_all (a2 : FVec Ideal Cert.Spec.S8192x512 .f32) : partSum a2 64 = Cert.Spec.totR a2 :=
  Cert.LibStream.sum_tile_all (N := 8192) (B := 1024) (n := 8) rfl (by decide)
    (fun I J => Cert.Spec.simR a2 I J * Cert.Spec.simR a2 I J)

variable (V : (c : Dev nD) → (b : Ref sig .tc) → Buf (Elt Ideal) ((c : Thread nD τ).loc b))

theorem acc_partSum (c : Dev nD) (a2 : FVec Ideal Cert.Spec.S8192x512 .f32)
    (hqi : ∀ (t : Fin cfg1.N) (a : Fin 1024) (k : Fin 512), qiBlk (F := Ideal) V c t (ix2 a k) = ((Cert.Spec.Qr a2 (rowI t a) k : ℝ) : EReal))
    (hqj : ∀ (t : Fin cfg1.N) (b : Fin 1024) (k : Fin 512), qjBlk (F := Ideal) V c t (ix2 b k) = ((Cert.Spec.Qr a2 (rowJ t b) k : ℝ) : EReal))
    (hsr : ∀ (t : Fin cfg1.N) (a : Fin 1024), srBlk (F := Ideal) V c t (ix2 a 0) = ((Cert.Spec.sqn a2 (rowI t a) : ℝ) : EReal))
    (hsc : ∀ (t : Fin cfg1.N) (b : Fin 1024), scBlk (F := Ideal) V c t (ix2 0 b) = ((Cert.Spec.sqn a2 (rowJ t b) : ℝ) : EReal)) :
    ∀ (n : ℕ) (hn : n < cfg1.N), accAt (F := Ideal) V c n hn (ix2 0 0) = ((partSum a2 (n + 1) : ℝ) : EReal) := by
  intro n
  induction n with
  | zero =>
    intro hn
    rw [partSum_succ a2 ⟨0, hn⟩]
    show k1_pay1 (F := Ideal) (k1_pay3 (F := Ideal) (qiBlk V c ⟨0, hn⟩) (qjBlk V c ⟨0, hn⟩) (srBlk V c ⟨0, hn⟩) (scBlk V c ⟨0, hn⟩)) (k1_pay2 (F := Ideal)) (ix2 (0 : Fin 1) (0 : Fin 1)) = _
    refine accNew_spec a2 _ _ _ _ _ _ (rowI ⟨0, hn⟩) (rowJ ⟨0, hn⟩) (hqi ⟨0, hn⟩) (hqj ⟨0, hn⟩) (hsr ⟨0, hn⟩) (hsc ⟨0, hn⟩) ?_
    rw [reset_apply, partSum_zero]
  | succ n ih =>
    intro hn
    rw [partSum_succ a2 ⟨n + 1, hn⟩]
    show k1_pay1 (F := Ideal) (k1_pay3 (F := Ideal) (qiBlk V c ⟨n + 1, hn⟩) (qjBlk V c ⟨n + 1, hn⟩) (srBlk V c ⟨n + 1, hn⟩) (scBlk V c ⟨n + 1, hn⟩)) (accAt (F := Ideal) V c n (Nat.lt_of_succ_lt hn)) (ix2 (0 : Fin 1) (0 : Fin 1)) = _
    exact accNew_spec a2 _ _ _ _ _ _ (rowI ⟨n + 1, hn⟩) (rowJ ⟨n + 1, hn⟩) (hqi ⟨n + 1, hn⟩) (hqj ⟨n + 1, hn⟩) (hsr ⟨n + 1, hn⟩) (hsc ⟨n + 1, hn⟩)
      (ih (Nat.lt_of_succ_lt hn))

theorem acc_value (c : Dev nD) (a2 : FVec Ideal Cert.Spec.S8192x512 .f32)
    (hqi : ∀ (t : Fin cfg1.N) (a : Fin 1024) (k : Fin 512), qiBlk (F := Ideal) V c t (ix2 a k) = ((Cert.Spec.Qr a2 (rowI t a) k : ℝ) : EReal))
    (hqj : ∀ (t : Fin cfg1.N) (b : Fin 1024) (k : Fin 512), qjBlk (F := Ideal) V c t (ix2 b k) = ((Cert.Spec.Qr a2 (rowJ t b) k : ℝ) : EReal))
    (hsr : ∀ (t : Fin cfg1.N) (a : Fin 1024), srBlk (F := Ideal) V c t (ix2 a 0) = ((Cert.Spec.sqn a2 (rowI t a) : ℝ) : EReal))
    (hsc : ∀ (t : Fin cfg1.N) (b : Fin 1024), scBlk (F := Ideal) V c t (ix2 0 b) = ((Cert.Spec.sqn a2 (rowJ t b) : ℝ) : EReal)) :
    accAt (F := Ideal) V c lastPt.val lastPt.isLt (ix2 0 0) = ((Cert.Spec.totR a2 : ℝ) : EReal) := by
  rw [← partSum_all a2]
  exact acc_partSum V c a2 hqi hqj hsr hsc 63 lastPt.isLt

end Cert.KernelIdeal.Pen

end
-- ==== Proof.KVal.lean ====
/- The kernel program's result is the common value. -/
import proofs.«410698_j38302518346315_1_alg».proof.Proof.Gen.KernelIdeal.Launch
import proofs.«410698_j38302518346315_1_alg».proof.Proof.Gen.KernelIdeal.Skeleton
import proofs.«410698_j38302518346315_1_alg».proof.Proof.Gen.KernelIdeal.Points
import proofs.«410698_j38302518346315_1_alg».proof.Proof.Gen.KernelIdeal.Regions
import proofs.«410698_j38302518346315_1_alg».proof.Proof.KW
import proofs.«410698_j38302518346315_1_alg».proof.Proof.CeLayout
import proofs.«410698_j38302518346315_1_alg».proof.Proof.CeValue
import proofs.«410698_j38302518346315_1_alg».proof.Proof.PenLayout
import proofs.«410698_j38302518346315_1_alg».proof.Proof.PenValue
import proofs.«410698_j38302518346315_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

open scoped BigOperators

namespace Cert.KernelIdeal.Run

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

theorem col_of_vec {α : Type} (x : S8192.Idx → α) (h : S8192.ShapeCasts S8192x1) (r : Fin 8192) (u : Fin 1) :
    shapeCast S8192x1 x h (ix2 r u) = x (ix1 r) :=
  shapeCast_apply x h _ _ (by
    have hu : u.val = 0 := by omega
    rw [Shape.rowMajor_val_one, Shape.rowMajor_val_two]
    show r.val = r.val * 1 + u.val
    omega)

theorem row_of_vec {α : Type} (x : S8192.Idx → α) (h : S8192.ShapeCasts S1x8192) (u : Fin 1) (j : Fin 8192) :
    shapeCast S1x8192 x h (ix2 u j) = x (ix1 j) :=
  shapeCast_a_1a_apply x h u j

theorem vec_of_col {α : Type} (x : S8192x1.Idx → α) (h : S8192x1.ShapeCasts S8192) (r : Fin 8192) :
    shapeCast S8192 x h (ix1 r) = x (ix2 r (0 : Fin 1)) :=
  shapeCast_apply x h _ _ (by
    rw [Shape.rowMajor_val_two, Shape.rowMajor_val_one]
    show r.val * 1 + 0 = r.val
    omega)

theorem scalar_of_1x1 {α : Type} (x : S1x1.Idx → α) (h : S1x1.ShapeCasts S_) (i : S_.Idx) :
    shapeCast S_ x h i = x (ix2 (0 : Fin 1) (0 : Fin 1)) :=
  shapeCast_apply x h _ _ (by
    rw [Shape.rowMajor_val_two]
    have := (S_.rowMajor i).isLt
    show 0 * 1 + 0 = (S_.rowMajor i).val
    have hn : S_.numel = 1 := by decide
    omega)

theorem R1_arg0 (c : Dev nD) : R1 (F := Ideal) m c main_arg0 = m ((c.tc : Thread nD τ).loc main_arg0) :=
  W1_of m c main_arg0 (by decide)

theorem R1_v0 (c : Dev nD) (r : Fin 8192) :
    (R1 (F := Ideal) m c main_v0 : Vec Ideal S8192x1 .i32) (ix2 r 0) = (m ((c.tc : Thread nD τ).loc main_arg1) : IVec S8192 32) (ix1 r) := by
  have e : (R1 (F := Ideal) m c main_v0 : Vec Ideal S8192x1 .i32)
      = shapeCast S8192x1 (m ((c.tc : Thread nD τ).loc main_arg1) : IVec S8192 32) shapeCasts_S8192_S8192x1 := by
    show StableHlo.after hostOps0 (fun b => m (c, b)) (Proc.devRef .tc main_v0) = _
    after_results <;> rfl
  rw [e]
  exact col_of_vec _ _ r 0

theorem sqv_apply (a2 : FVec Ideal S8192x512 .f32) (h2 : Cert.Spec.FinQuery a2) (i : Fin 8192) :
    Host.reduceAdd (F := Ideal) (mulf a2 a2) (constant (F := Ideal) S_ .f32 0x00000000#32) reducesTo_S8192x512_S8192_d1 h_S_ (ix1 i)
      = ((Cert.Spec.sqn a2 i : ℝ) : EReal) := by
  have hk : ∀ (k : Fin 512) (j : S8192x512.Idx), j = ix2 i k →
      a2 j * a2 j = ((Cert.Spec.Qr a2 i k * Cert.Spec.Qr a2 i k : ℝ) : EReal) := by
    intro k j hj; rw [hj, Cert.Spec.query_eq h2 i k, ← EReal.coe_mul]
  simp only [Host.reduceAdd, Ideal.hostReduceAdd_def]
  rw [Ideal.hostReduceAdd_single reducesTo_S8192x512_S8192_d1 (by decide), constant_apply, Ideal.ofBits_zero_f32, zero_add]
  unfold Cert.Spec.sqn
  rw [← Cert.LibEReal.coe_sum]
  refine Finset.sum_congr rfl fun k _ => ?_
  rw [mulf_apply]
  exact hk k _ (funext fun a => Fin.ext (by match a with | ⟨0, _⟩ => rfl | ⟨1, _⟩ => rfl))

theorem W2_arg1 (c : Dev nD) : W2 (F := Ideal) m c main_arg1 = m ((c.tc : Thread nD τ).loc main_arg1) :=
  (W2_of m c main_arg1 (by decide)).trans (W1_of m c main_arg1 (by decide))
theorem W2_arg2 (c : Dev nD) : W2 (F := Ideal) m c main_arg2 = m ((c.tc : Thread nD τ).loc main_arg2) :=
  (W2_of m c main_arg2 (by decide)).trans (W1_of m c main_arg2 (by decide))

theorem R5_v16 (c : Dev nD) (i : Fin 8192) (k : Fin 512) :
    (R5 (F := Ideal) m c main_v16 : Vec Ideal S8192x512 .bf16) (ix2 i k)
      = (m ((c.tc : Thread nD τ).loc main_arg2) : FVec Ideal S8192x512 .f32) (ix2 i k) := by
  have e : @Eq (FVec Ideal S8192x512 .bf16) (R5 (F := Ideal) m c main_v16)
      (truncf (F := Ideal) .bf16 (W2 (F := Ideal) m c main_arg2 : FVec Ideal S8192x512 .f32) bitsLt_bf16_f32) := by
    show StableHlo.after hostOps1_2 (W4 m c) (Proc.devRef .tc main_v16) = _
    after_results <;> rfl
  rw [e, truncf_apply, W2_arg2]

theorem R5_v14 (c : Dev nD) (h2 : Cert.Spec.FinQuery (m ((c.tc : Thread nD τ).loc main_arg2))) (i : Fin 8192) :
    (R5 (F := Ideal) m c main_v14 : Vec Ideal S8192x1 .f32) (ix2 i 0)
      = ((Cert.Spec.sqn (m ((c.tc : Thread nD τ).loc main_arg2)) i : ℝ) : EReal) := by
  have e : @Eq (FVec Ideal S8192x1 .f32) (R5 (F := Ideal) m c main_v14)
      (shapeCast S8192x1 (Host.reduceAdd (F := Ideal) (mulf (W2 (F := Ideal) m c main_arg2 : FVec Ideal S8192x512 .f32) (W2 (F := Ideal) m c main_arg2))
          (constant (F := Ideal) S_ .f32 0x00000000#32) reducesTo_S8192x512_S8192_d1 h_S_) shapeCasts_S8192_S8192x1) := by
    show StableHlo.after hostOps1_2 (W4 m c) (Proc.devRef .tc main_v14) = _
    after_results <;> rfl
  rw [e, col_of_vec, W2_arg2]
  exact sqv_apply _ h2 i

theorem R5_v15 (c : Dev nD) (h2 : Cert.Spec.FinQuery (m ((c.tc : Thread nD τ).loc main_arg2))) (j : Fin 8192) :
    (R5 (F := Ideal) m c main_v15 : Vec Ideal S1x8192 .f32) (ix2 0 j)
      = ((Cert.Spec.sqn (m ((c.tc : Thread nD τ).loc main_arg2)) j : ℝ) : EReal) := by
  have e : @Eq (FVec Ideal S1x8192 .f32) (R5 (F := Ideal) m c main_v15)
      (shapeCast S1x8192 (Host.reduceAdd (F := Ideal) (mulf (W2 (F := Ideal) m c main_arg2 : FVec Ideal S8192x512 .f32) (W2 (F := Ideal) m c main_arg2))
          (constant (F := Ideal) S_ .f32 0x00000000#32) reducesTo_S8192x512_S8192_d1 h_S_) shapeCasts_S8192_S1x8192) := by
    show StableHlo.after hostOps1_2 (W4 m c) (Proc.devRef .tc main_v15) = _
    after_results <;> rfl
  rw [e, row_of_vec, W2_arg2]
  exact sqv_apply _ h2 j

theorem out1_row (c : Dev nD) (h0 : Cert.Spec.FinLogits (m ((c.tc : Thread nD τ).loc main_arg0))) (r : Fin 8192)
    (hL : ((m ((c.tc : Thread nD τ).loc main_arg1) : IVec S8192 32) (ix1 r)).toNat < 32000) :
    (out1 (F := Ideal) m c : Vec Ideal S8192x1 .f32) (ix2 r 0)
      = ((Cert.Spec.nllR (m ((c.tc : Thread nD τ).loc main_arg0)) r ⟨((m ((c.tc : Thread nD τ).loc main_arg1) : IVec S8192 32) (ix1 r)).toNat, hL⟩ : ℝ) : EReal) := by
  have hx : ∀ (t : Fin cfg0.N) (p : Fin 1024) (k : Fin 1280), Ce.xblk (F := Ideal) (R1 m) c t (ix2 p k)
      = ((Cert.Spec.X (m ((c.tc : Thread nD τ).loc main_arg0)) (Ce.rowOf t p) (Ce.colOf t k) : ℝ) : EReal) := by
    intro t p k
    rw [Ce.xblk_apply, R1_arg0]
    exact Cert.Spec.logit_eq h0 _ _
  have hl : ∀ (t : Fin cfg0.N) (p : Fin 1024), Ce.lblk (F := Ideal) (R1 m) c t (ix2 p 0)
      = (fun r' : Fin 8192 => (m ((c.tc : Thread nD τ).loc main_arg1) : IVec S8192 32) (ix1 r')) (Ce.rowOf t p) := by
    intro t p
    rw [Ce.lblk_apply]
    exact R1_v0 m c _
  have hp : r.val % 1024 < 1024 := Nat.mod_lt _ (by decide)
  have hrow : Ce.rowOf (Ce.lastOf r) ⟨r.val % 1024, hp⟩ = r :=
    Fin.ext (by show 1024 * ((25 * (r.val / 1024) + 24) / 25) + r.val % 1024 = r.val; omega)
  have h24 : (Ce.lastOf r).val % 25 = 24 := by show (25 * (r.val / 1024) + 24) % 25 = 24; omega
  have key : ∀ (r' : Fin 8192) (e : r' = r) (hL' : ((m ((c.tc : Thread nD τ).loc main_arg1) : IVec S8192 32) (ix1 r')).toNat < 32000),
      ((Cert.Spec.lse (Cert.Spec.X (m ((c.tc : Thread nD τ).loc main_arg0)) r')
          - Cert.Spec.X (m ((c.tc : Thread nD τ).loc main_arg0)) r' ⟨((m ((c.tc : Thread nD τ).loc main_arg1) : IVec S8192 32) (ix1 r')).toNat, hL'⟩ : ℝ) : EReal)
        = ((Cert.Spec.nllR (m ((c.tc : Thread nD τ).loc main_arg0)) r ⟨((m ((c.tc : Thread nD τ).loc main_arg1) : IVec S8192 32) (ix1 r)).toNat, hL⟩ : ℝ) : EReal) := by
    intro r' e hL'; subst e; rfl
  unfold out1
  rw [Ce.arrAt_out (R1 m) c r]
  exact (Ce.outAt_value (R1 m) c (Cert.Spec.X (m ((c.tc : Thread nD τ).loc main_arg0)))
      (fun r' : Fin 8192 => (m ((c.tc : Thread nD τ).loc main_arg1) : IVec S8192 32) (ix1 r')) hx hl (Ce.lastOf r) h24 ⟨r.val % 1024, hp⟩ (by rw [hrow]; exact hL)).trans (key _ hrow _)

theorem out17_val (c : Dev nD) (h2 : Cert.Spec.FinQuery (m ((c.tc : Thread nD τ).loc main_arg2))) :
    (out17 (F := Ideal) m c : Vec Ideal S1x1 .f32) (ix2 0 0)
      = ((Cert.Spec.totR (m ((c.tc : Thread nD τ).loc main_arg2)) : ℝ) : EReal) := by
  unfold out17
  rw [Pen.arrAt_out (R5 m) c]
  refine Pen.acc_value (R5 m) c (m ((c.tc : Thread nD τ).loc main_arg2)) ?_ ?_ ?_ ?_
  · intro t a k; rw [Pen.qiBlk_apply, R5_v16]; exact Cert.Spec.query_eq h2 _ _
  · intro t b k; rw [Pen.qjBlk_apply, R5_v16]; exact Cert.Spec.query_eq h2 _ _
  · intro t a; rw [Pen.srBlk_apply]; exact R5_v14 m c h2 _
  · intro t b; rw [Pen.scBlk_apply]; exact R5_v15 m c h2 _

theorem W5_v11 (c : Dev nD) : @Eq (FVec Ideal S_ .f32) (W5 (F := Ideal) m c main_v11)
    (Cert.Spec.ceOf (W2 (F := Ideal) m c main_arg1 : IVec S8192 32)
      (shapeCast S8192 (W2 (F := Ideal) m c main_v1 : FVec Ideal S8192x1 .f32) shapeCasts_S8192x1_S8192)) := by
  show StableHlo.after hostOps1_2 (W4 m c) (Proc.devRef .tc main_v11) = _
  after_results
  simp only [StableHlo.TRef.ofBuf, StableHlo.TRef.toBuf, cast_eq]
  rfl

theorem W7_v20 (c : Dev nD) : @Eq (FVec Ideal S_ .f32) (W7 (F := Ideal) m c main_v20)
    (Cert.Spec.resOf (m ((c.tc : Thread nD τ).loc main_arg1) : IVec S8192 32)
      (shapeCast S8192 (out1 (F := Ideal) m c : FVec Ideal S8192x1 .f32) shapeCasts_S8192x1_S8192)
      (shapeCast S_ (out17 (F := Ideal) m c : FVec Ideal S1x1 .f32) shapeCasts_S1x1_S_)) := by
  have e : @Eq (FVec Ideal S_ .f32) (W7 (F := Ideal) m c main_v20)
      (addf (F := Ideal) (W6 (F := Ideal) m c main_v11 : FVec Ideal S_ .f32)
        (Host.sqrt (F := Ideal) (shapeCast S_ (W6 (F := Ideal) m c main_v17 : FVec Ideal S1x1 .f32) shapeCasts_S1x1_S_))) := by
    show StableHlo.after hostOps2 (W6 m c) (Proc.devRef .tc main_v20) = _
    after_results <;> rfl
  rw [e, W6_of m c main_v11 (by decide), W6_v17, W5_v11, W2_arg1, W2_v1]
  rfl

theorem W7_result (c : Dev nD)
    (h0 : Cert.Spec.FinLogits (m ((c.tc : Thread nD τ).loc main_arg0)))
    (h1 : Cert.Spec.LabelOk (m ((c.tc : Thread nD τ).loc main_arg1)))
    (h2 : Cert.Spec.FinQuery (m ((c.tc : Thread nD τ).loc main_arg2))) :
    W7 (F := Ideal) m c main_v20
      = Cert.Spec.result (m ((c.tc : Thread nD τ).loc main_arg0)) (m ((c.tc : Thread nD τ).loc main_arg1)) (m ((c.tc : Thread nD τ).loc main_arg2)) := by
  rw [W7_v20]
  unfold Cert.Spec.result
  have ht : shapeCast S_ (out17 (F := Ideal) m c : FVec Ideal S1x1 .f32) shapeCasts_S1x1_S_
      = Cert.Spec.totSpec (m ((c.tc : Thread nD τ).loc main_arg2)) :=
    funext fun i => by rw [scalar_of_1x1, out17_val m c h2]; rfl
  rw [ht]
  refine Cert.Spec.resOf_congr _ _ _ _ fun i hi => ?_
  obtain ⟨r, rfl⟩ : ∃ r : Fin 8192, i = ix1 r := ⟨i 0, eq_ix1 i⟩
  have hL : ((m ((c.tc : Thread nD τ).loc main_arg1) : IVec S8192 32) (ix1 r)).toNat < 32000 := (h1 r).resolve_right hi
  rw [vec_of_col, out1_row m c h0 r hL]
  unfold Cert.Spec.nllSpec
  rw [dif_pos hL]

end Cert.KernelIdeal.Run

end
-- ==== Proof.LibTakeAlong.lean ====
/- A gather that takes one entry per row reads the operand at the row's index clamped into the row. -/
import Idealize.ShloMosaic.Lib.StableHlo.Predicate
import Idealize.ShloMosaic.Lib.ValueIdx

namespace Cert.LibTakeAlong

open Idealize.ShloMosaic Idealize.ShloMosaic.ValueIdx

def clampCol {N w : Nat} (D : Nat) (hD : 0 < D) (idx : IVec ⟨3, ![N, 1, 1]⟩ w) (r : Fin N) : Fin D :=
  ⟨min (idx (ix3 r 0 0)).toInt.toNat (D - 1), by omega⟩

theorem getElem_of_eq {β : Type} {l l' : List β} (h : l = l') {k k' : Nat} (hk : k < l.length) (hk' : k' < l'.length)
    (hkk : k = k') : l[k] = l'[k'] := by
  subst h; subst hkk; rfl

theorem idxOf_pair : ∀ b : Fin 3, b.val < 2 → List.idxOf b ([0, 1] : List (Fin 3)) = b.val := by decide

theorem pair_getElem : ∀ k : Fin 2, ([0, 1] : List (Fin 2))[k.val]'(by have := k.isLt; simpa using this) = k := by decide

section
variable {α : Type} {N D w : Nat} (d : GatherDims ⟨2, ![N, D]⟩ ⟨3, ![N, 1, 1]⟩ ⟨2, ![N, 1]⟩)

theorem gather_take_along (hoff : d.offsetDims = []) (hcoll : d.collapsedSliceDims = [1]) (hob : d.operandBatchingDims = [0])
    (hsb : d.startIndicesBatchingDims = [0]) (hsim : d.startIndexMap = [1]) (hivd : d.indexVectorDim = 2)
    (hss : d.sliceSizes = ![1, 1])
    (x : (⟨2, ![N, D]⟩ : Shape).Idx → α) (idx : IVec ⟨3, ![N, 1, 1]⟩ w) (r : Fin N) (hD : 0 < D) :
    Host.gather d x idx (ix2 r 0) = x (ix2 r (clampCol D hD idx r)) := by
  have hbd : d.batchDims = [0, 1] := by
    show Shape.kept _ d.offsetDims = [0, 1]
    rw [hoff]
    show (List.finRange 2).filter (fun a : Fin 2 => decide (a ∉ ([] : List (Fin 2)))) = [0, 1]
    decide
  have hsk : d.siKept = [0, 1] := by
    show (List.finRange 3).filter (fun b : Fin 3 => decide (b.val ≠ d.indexVectorDim)) = [0, 1]
    rw [hivd]; decide
  have hnk : ∀ a : Fin 2, a ∉ d.sKept := fun a => by
    rw [GatherDims.mem_sKept, hcoll, hob]
    match a with
    | ⟨0, _⟩ => simp
    | ⟨1, _⟩ => simp
  have hsc : ∀ (j : (⟨2, ![N, 1]⟩ : Shape).Idx) (b : Fin 3) (hb : b ∈ d.siKept) (k : Fin 2), b.val = k.val →
      (d.siCoord j b hb).val = (j k).val := by
    intro j b hb k hbk
    have hpos : d.siKept.idxOf b = k.val := by
      rw [hsk, idxOf_pair b (by have := k.isLt; omega)]; exact hbk
    unfold GatherDims.siCoord
    simp only [Fin.val_cast]
    have key : ∀ X : Fin 2, X = k → (j X).val = (j k).val := fun X hX => by subst hX; rfl
    refine key _ ((getElem_of_eq hbd _ (by have := k.isLt; simpa using this) hpos).trans (pair_getElem k))
  have hlen : d.startIndexMap.length = 1 := by rw [hsim]; rfl
  have hsi : ∀ c : Fin d.startIndexMap.length, d.siIdx (ix2 r 0) c = ix3 r 0 0 := by
    intro c
    funext b
    match b with
    | ⟨0, _⟩ =>
      unfold GatherDims.siIdx
      rw [dif_neg (by rw [hivd]; simp)]
      apply Fin.ext
      exact hsc (ix2 r 0) _ _ 0 rfl
    | ⟨1, _⟩ =>
      unfold GatherDims.siIdx
      rw [dif_neg (by rw [hivd]; simp)]
      apply Fin.ext
      exact hsc (ix2 r 0) _ _ 1 rfl
    | ⟨2, _⟩ =>
      unfold GatherDims.siIdx
      rw [dif_pos (by rw [hivd])]
      apply Fin.ext
      show c.val = 0
      have := c.isLt
      omega
  have h0 : (d.operandIdx (ix2 r 0) idx (0 : Fin 2)).val = r.val := by
    have hb : (0 : Fin 2) ∈ d.operandBatchingDims := by rw [hob]; exact List.mem_singleton.mpr rfl
    show d.start (ix2 r 0) idx 0 + d.batchCoord (ix2 r 0) 0 + d.offCoord (ix2 r 0) 0 = r.val
    rw [GatherDims.offCoord_eq_zero _ _ _ (hnk 0), Nat.add_zero, GatherDims.start_batching _ _ _ _ hb, Nat.zero_add]
    unfold GatherDims.batchCoord
    rw [dif_pos hb]
    refine hsc (ix2 r 0) _ _ 0 ?_
    have hp : d.operandBatchingDims.idxOf (0 : Fin 2) = 0 := by rw [hob]; simp
    exact congrArg Fin.val (getElem_of_eq hsb _ (by decide : 0 < ([0] : List (Fin 3)).length) hp)
  have h1 : (d.operandIdx (ix2 r 0) idx (1 : Fin 2)).val = (clampCol D hD idx r).val := by
    have hm : (1 : Fin 2) ∈ d.startIndexMap := by rw [hsim]; exact List.mem_singleton.mpr rfl
    have hb : (1 : Fin 2) ∉ d.operandBatchingDims := by rw [hob]; simp
    have hsl : d.sliceSizes 1 = 1 := by rw [hss]; rfl
    show d.start (ix2 r 0) idx 1 + d.batchCoord (ix2 r 0) 1 + d.offCoord (ix2 r 0) 1 = min (idx (ix3 r 0 0)).toInt.toNat (D - 1)
    rw [GatherDims.batchCoord_eq_zero _ _ _ hb, GatherDims.offCoord_eq_zero _ _ _ (hnk 1), Nat.add_zero]
    unfold GatherDims.start
    rw [dif_pos hm, hsi]
    show min (idx (ix3 r 0 0)).toInt.toNat (D - d.sliceSizes 1) = _
    rw [hsl]
  unfold Host.gather
  congr 1
  funext a
  apply Fin.ext
  match a with
  | ⟨0, _⟩ => exact h0
  | ⟨1, _⟩ => exact h1

theorem gather_take_along_of_lt (hoff : d.offsetDims = []) (hcoll : d.collapsedSliceDims = [1])
    (hob : d.operandBatchingDims = [0]) (hsb : d.startIndicesBatchingDims = [0]) (hsim : d.startIndexMap = [1])
    (hivd : d.indexVectorDim = 2) (hss : d.sliceSizes = ![1, 1])
    (x : (⟨2, ![N, D]⟩ : Shape).Idx → α) (idx : IVec ⟨3, ![N, 1, 1]⟩ 32) (r : Fin N)
    (hlt : (idx (ix3 r 0 0)).toNat < D) (hpos : (idx (ix3 r 0 0)).toNat < 2 ^ 31) :
    Host.gather d x idx (ix2 r 0) = x (ix2 r ⟨(idx (ix3 r 0 0)).toNat, hlt⟩) := by
  have hD : 0 < D := by omega
  rw [gather_take_along d hoff hcoll hob hsb hsim hivd hss x idx r hD]
  congr 2
  apply Fin.ext
  show min (idx (ix3 r 0 0)).toInt.toNat (D - 1) = (idx (ix3 r 0 0)).toNat
  rw [StableHlo.Predicate.toInt_eq_toNat_of_lt hpos, Int.toNat_natCast]
  omega

end

end Cert.LibTakeAlong
-- ==== Proof.RefMath.lean ====
/- Real arithmetic of the reference: a column label passes the clip and the bounds tests; -(x_k - m - log sum exp(x - m)) = lse x - x_k. -/
import Idealize.ShloMosaic.PureOps
import Idealize.ShloMosaic.PureOps.Ideal
import Idealize.ShloMosaic.PureOps.Ideal.Laws
import Idealize.ShloMosaic.Lib.StableHlo.Predicate
import Idealize.ShloMosaic.Lib.ValueIdx
import Mathlib.Analysis.SpecialFunctions.Log.Basic
import Mathlib.Analysis.SpecialFunctions.Exp
import proofs.«410698_j38302518346315_1_alg».proof.Proof.LibEReal
import proofs.«410698_j38302518346315_1_alg».proof.Proof.Spec

noncomputable section

open scoped BigOperators

namespace Cert.RefMath

open Idealize.ShloMosaic Idealize.ShloMosaic.ValueIdx

theorem slt_eq {a b : BitVec 32} (ha : a.toNat < 2 ^ 31) (hb : b.toNat < 2 ^ 31) :
    a.slt b = decide (a.toNat < b.toNat) := by
  rw [Bool.eq_iff_iff, decide_eq_true_eq, ← StableHlo.Predicate.slt_bool_iff_toNat ha hb,
    StableHlo.Predicate.ofBool_eq_one_iff]

section Word
variable {L : BitVec 32}

theorem maxsi_zero_col (h : L.toNat < 32000) : IntOp.maxsi 0#32 L = L := by
  unfold IntOp.maxsi
  rw [slt_eq (by omega) (by decide), if_neg (by simp)]

theorem minsi_top_col (h : L.toNat < 32000) : IntOp.minsi 31999#32 L = L := by
  unfold IntOp.minsi
  rw [slt_eq (by decide) (by omega), if_neg]
  have : (31999#32 : BitVec 32).toNat = 31999 := by decide
  simp only [decide_eq_true_eq, this]; omega

theorem slt_zero_col (h : L.toNat < 32000) : IntOp.cmpi .slt L 0#32 = 0#1 := by
  unfold IntOp.cmpi
  show BitVec.ofBool (L.slt 0#32) = 0#1
  rw [slt_eq (by omega) (by decide)]
  simp

theorem sge_zero_col (h : L.toNat < 32000) : IntOp.cmpi .sge L 0#32 = 1#1 :=
  (StableHlo.Predicate.sge_iff_toNat (by omega) (by decide)).2 (Nat.zero_le _)

theorem sle_top_col (h : L.toNat < 32000) : IntOp.cmpi .sle L 31999#32 = 1#1 :=
  (StableHlo.Predicate.sle_iff_toNat (by omega) (by decide)).2 (by
    have : (31999#32 : BitVec 32).toNat = 31999 := by decide
    omega)

end Word

instance : Nonempty (Fin 32000) := ⟨⟨0, by norm_num⟩⟩

theorem sum_exp_pos (x : Fin 32000 → ℝ) : 0 < ∑ k, Real.exp (x k) :=
  Finset.sum_pos (fun k _ => Real.exp_pos _) Finset.univ_nonempty

theorem lse_shift (x : Fin 32000 → ℝ) (m : ℝ) :
    Real.log (∑ k, Real.exp (x k - m)) = Cert.Spec.lse x - m := by
  unfold Cert.Spec.lse
  have h : ∑ k, Real.exp (x k - m) = (∑ k, Real.exp (x k)) * Real.exp (-m) := by
    rw [Finset.sum_mul]
    refine Finset.sum_congr rfl fun k _ => ?_
    rw [sub_eq_add_neg, Real.exp_add]
  rw [h, Real.log_mul (sum_exp_pos x).ne' (Real.exp_pos _).ne', Real.log_exp]
  ring

theorem nll_row (x : Fin 32000 → ℝ) (m : ℝ) (k : Fin 32000) :
    -((((x k : ℝ) : EReal) - ((m : ℝ) : EReal))
        - Ideal.log ((0 : EReal) + ∑ j, Ideal.exp (((x j : ℝ) : EReal) - ((m : ℝ) : EReal))))
      = ((Cert.Spec.lse x - x k : ℝ) : EReal) := by
  have hs : (∑ j, Ideal.exp (((x j : ℝ) : EReal) - ((m : ℝ) : EReal)))
      = ((∑ j, Real.exp (x j - m) : ℝ) : EReal) := by
    rw [← Cert.LibEReal.coe_sum]
    refine Finset.sum_congr rfl fun j _ => ?_
    rw [← EReal.coe_sub, Cert.LibEReal.exp_coe]
  have hpos : 0 < ∑ j, Real.exp (x j - m) :=
    Finset.sum_pos (fun j _ => Real.exp_pos _) Finset.univ_nonempty
  rw [hs, zero_add, Ideal.log_coe, if_neg (not_le.2 hpos), lse_shift, ← EReal.coe_sub, ← EReal.coe_sub,
    ← EReal.coe_neg, EReal.coe_eq_coe_iff]
  ring

theorem cmp_ogt_zero_coe (d : ℝ) :
    Ideal.cmp .ogt ((d : ℝ) : EReal) (0 : EReal) = if 0 < d then 1#1 else 0#1 := by
  show BitVec.ofBool (decide ((0 : EReal) < ((d : ℝ) : EReal))) = _
  by_cases h : 0 < d
  · rw [if_pos h, decide_eq_true (EReal.coe_pos.2 h)]; rfl
  · rw [if_neg h, decide_eq_false (fun h' => h (EReal.coe_pos.1 h'))]; rfl

theorem d2_coe (ni nj g : ℝ) :
    max (((ni : ℝ) : EReal) + ((nj : ℝ) : EReal) - Ideal.ofBits .f32 0x40000000#32 * ((g : ℝ) : EReal))
        (Ideal.ofBits .f32 0x00000000#32)
      = ((max (ni + nj - 2 * g) 0 : ℝ) : EReal) := by
  rw [Cert.LibEReal.ofBits_two, Ideal.ofBits_zero_f32, ← EReal.coe_add, ← EReal.coe_mul, ← EReal.coe_sub,
    ← EReal.coe_zero, Cert.LibEReal.max_coe]

theorem sim_of_d2 (d : ℝ) (hd : 0 ≤ d) :
    Ideal.exp (Ideal.div
        (-(Scalar.select (Ideal.cmp .ogt ((d : ℝ) : EReal) (Ideal.ofBits .f32 0x00000000#32))
            (Ideal.sqrt (Scalar.select (Ideal.cmp .ogt ((d : ℝ) : EReal) (Ideal.ofBits .f32 0x00000000#32))
              ((d : ℝ) : EReal) (Ideal.ofBits .f32 0x3F800000#32)))
            (Ideal.ofBits .f32 0x00000000#32)))
        (Ideal.ofBits .f32 0x3F800000#32))
      = ((Real.exp (-(if 0 < d then Real.sqrt d else 0)) : ℝ) : EReal) := by
  rw [Ideal.ofBits_zero_f32, Cert.LibEReal.ofBits_one, cmp_ogt_zero_coe]
  by_cases h : 0 < d
  · rw [if_pos h, if_pos h, select_one, select_one, Cert.LibEReal.sqrt_coe hd, ← EReal.coe_neg,
      Cert.LibEReal.div_coe_coe _ one_ne_zero, Cert.LibEReal.exp_coe, div_one]
  · rw [if_neg h, if_neg h, select_zero, ← EReal.coe_zero, ← EReal.coe_neg,
      Cert.LibEReal.div_coe_coe _ one_ne_zero, Cert.LibEReal.exp_coe, div_one]

end Cert.RefMath

end
-- ==== Proof.RefFold.lean ====
/- A row's maximum of real logits is real; an and-reduce over a one-element axis is the entry. -/
import Idealize.ShloMosaic.PureOps
import Idealize.ShloMosaic.PureOps.Reduce
import Idealize.ShloMosaic.PureOps.Ideal
import Idealize.ShloMosaic.PureOps.Ideal.Laws
import Idealize.ShloMosaic.Lib.ValueIdx
import proofs.«410698_j38302518346315_1_alg».proof.Proof.LibEReal
import proofs.«410698_j38302518346315_1_alg».proof.Proof.Spec

noncomputable section

open scoped BigOperators

namespace Cert.RefFold

open Idealize.ShloMosaic Idealize.ShloMosaic.ValueIdx Cert.Spec

theorem rowmax_real (a0 : FVec Ideal S8192x32000 .f32) (h0 : FinLogits a0) (init : S_.Idx → EReal)
    (hinit : ∀ i, init i = ⊥) (hred : S8192x32000.ReducesTo [1] S8192) (hS : 0 < S_.numel) (r : Fin 8192) :
    ∃ m : ℝ, max (⊥ : EReal) (Host.reduce (FloatOps.maximumf (F := Ideal) (φ := .f32)) a0 init hred hS (ix1 r))
      = ((m : ℝ) : EReal) := by
  have hR : S8192x32000.Reduces [1] S8192 := by decide
  rw [Host.reduce_eq_fold_single _ a0 init hred hR hS (ix1 r), hinit]
  show ∃ m : ℝ, max (⊥ : EReal) ((Finset.univ : Finset (Fin 32000)).fold max (⊥ : EReal)
    (fun k : Fin 32000 => a0 (hR.lift (ix1 r) k))) = _
  have hf : (fun k : Fin 32000 => a0 (hR.lift (ix1 r) k)) = fun k : Fin 32000 => ((X a0 r k : ℝ) : EReal) := by
    funext k
    have hk : hR.lift (ix1 r) k = ix2 r k :=
      funext fun a => Fin.ext (by match a with | ⟨0, _⟩ => rfl | ⟨1, _⟩ => rfl)
    rw [hk, logit_eq h0]
  rw [hf]
  haveI : Nonempty (Fin 32000) := ⟨⟨0, by norm_num⟩⟩
  exact ⟨_, by rw [Cert.LibEReal.fold_max_bot_coe, max_eq_right bot_le]⟩

theorem and_last (v : IVec ⟨3, ![8192, 1, 1]⟩ 1) (init : IVec S_ 1) (hinit : ∀ i, init i = 1#1)
    (hred : (⟨3, ![8192, 1, 1]⟩ : Shape).ReducesTo [2] ⟨2, ![8192, 1]⟩) (hS : 0 < S_.numel) (r : Fin 8192)
    (hv : v (ix3 r 0 0) = 1#1) :
    Host.reduce IntOp.andi v init hred hS (ix2 r 0) = 1#1 := by
  have hR : (⟨3, ![8192, 1, 1]⟩ : Shape).Reduces [2] ⟨2, ![8192, 1]⟩ := by decide
  rw [Host.reduce_eq_fold_single _ v init hred hR hS (ix2 r 0), hinit]
  show (Finset.univ : Finset (Fin 1)).fold IntOp.andi 1#1 (fun k : Fin 1 => v (hR.lift (ix2 r 0) k)) = 1#1
  rw [Finset.univ_unique, Finset.fold_singleton]
  have hk : hR.lift (ix2 r 0) (default : Fin 1) = ix3 r 0 0 :=
    funext fun a => Fin.ext (by match a with | ⟨0, _⟩ => rfl | ⟨1, _⟩ => rfl | ⟨2, _⟩ => rfl)
  rw [hk, hv]
  rfl

end Cert.RefFold

end
-- ==== Proof.RefCe.lean ====
/- On a row whose label is a column the reference's loss is lse x - x_label. -/
import proofs.«410698_j38302518346315_1_alg».proof.Proof.RefRead
import proofs.«410698_j38302518346315_1_alg».proof.Proof.Spec
import proofs.«410698_j38302518346315_1_alg».proof.Proof.LibEReal
import proofs.«410698_j38302518346315_1_alg».proof.Proof.LibTakeAlong
import proofs.«410698_j38302518346315_1_alg».proof.Proof.RefMath
import proofs.«410698_j38302518346315_1_alg».proof.Proof.RefFold
import Idealize.ShloMosaic.Lib.ValueIdx
import Idealize.ShloMosaic.Lib.StableHlo.Predicate
import Idealize.ShloMosaic.PureOps.Ideal.Laws

noncomputable section

open scoped BigOperators

namespace Cert.ReferenceIdeal.RefCe

open Idealize.ShloMosaic Idealize.ShloMosaic.ValueIdx Cert.ReferenceIdeal Cert.ReferenceIdeal.Gen Cert.ReferenceIdeal.ReadP

theorem e_v4 (r : Fin 8192) : idx_main_v4 (ix1 r) = ix2 r (0 : Fin 1) :=
  funext fun a => Fin.ext (by match a with | ⟨0, _⟩ => exact Nat.div_one _ | ⟨1, _⟩ => rfl)
theorem e_c2v5 (r : Fin 8192) : idx_main_call2_v5 (ix3 r (0 : Fin 1) (0 : Fin 1)) = ix2 r (0 : Fin 1) :=
  funext fun a => Fin.ext (by
    match a with
    | ⟨0, _⟩ => show ((r.val * 1 + 0) * 1 + 0) / 1 = r.val; omega
    | ⟨1, _⟩ => rfl)
theorem e_v2 (r : Fin 8192) : idx_main_v2 (ix2 r (0 : Fin 1)) = ix1 r :=
  funext fun a => Fin.ext (by match a with | ⟨0, _⟩ => rfl)
theorem e_c0v4 (r : Fin 8192) (k : Fin 32000) : idx_main_call0_v4 (ix2 r k) = ix2 r (0 : Fin 1) :=
  funext fun a => Fin.ext (by match a with | ⟨0, _⟩ => rfl | ⟨1, _⟩ => rfl)
theorem e_c0v3 (r : Fin 8192) : idx_main_call0_v3 (ix2 r (0 : Fin 1)) = ix1 r :=
  funext fun a => Fin.ext (by match a with | ⟨0, _⟩ => rfl)
theorem e_c0v10 (r : Fin 8192) (k : Fin 32000) : idx_main_call0_v10 (ix2 r k) = ix2 r (0 : Fin 1) :=
  funext fun a => Fin.ext (by match a with | ⟨0, _⟩ => rfl | ⟨1, _⟩ => rfl)
theorem e_c0v8 (r : Fin 8192) : idx_main_call0_v8 (ix2 r (0 : Fin 1)) = ix1 r :=
  funext fun a => Fin.ext (by match a with | ⟨0, _⟩ => rfl)
theorem e_c0v7 (r : Fin 8192) (k : Fin 32000) : idx_main_call0_v7 (ix1 r) k = ix2 r k :=
  funext fun a => Fin.ext (by match a with | ⟨0, _⟩ => rfl | ⟨1, _⟩ => rfl)

theorem clip_at (a1 : IVec S8192 32) (r : Fin 8192) (hL : (a1 (ix1 r)).toNat < 32000) :
    val_main_v1 (F := Ideal) a1 (ix1 r) = a1 (ix1 r) := by
  rw [val_main_v1_apply, val_main_call1_v4_apply, val_main_call1_v3_apply, val_main_c_0_apply,
    val_main_call1_v2_apply, val_main_call1_v1_apply, val_main_call1_v0_apply, val_main_c_apply,
    Cert.RefMath.maxsi_zero_col hL, Cert.RefMath.minsi_top_col hL]

theorem word_at (a1 : IVec S8192 32) (r : Fin 8192) (hL : (a1 (ix1 r)).toNat < 32000) :
    val_main_call2_v5 (F := Ideal) a1 (ix3 r (0 : Fin 1) (0 : Fin 1)) = a1 (ix1 r) := by
  rw [val_main_call2_v5_apply, e_c2v5, val_main_call2_v4_apply, val_main_call2_v1_apply, val_main_v2_apply, e_v2,
    clip_at a1 r hL, val_main_call2_v0_apply, val_main_call2_c_apply, Cert.RefMath.slt_zero_col hL, select_zero]

theorem mask_at (a1 : IVec S8192 32) (r : Fin 8192) (hL : (a1 (ix1 r)).toNat < 32000) :
    val_main_call2_v12 (F := Ideal) a1 (ix2 r (0 : Fin 1)) = 1#1 := by
  unfold val_main_call2_v12
  refine Cert.RefFold.and_last _ _ (fun i => val_main_call2_c_3_apply i) _ _ r ?_
  rw [val_main_call2_v11_apply, val_main_call2_v7_apply, val_main_call2_v10_apply, word_at a1 r hL,
    val_main_call2_v6_apply, val_main_call2_c_2_apply, val_main_call2_v9_apply, val_main_call2_v8_apply,
    val_main_call2_c_1_apply, Cert.RefMath.sge_zero_col hL, Cert.RefMath.sle_top_col hL]
  rfl

theorem take_at (a0 : FVec Ideal S8192x32000 .f32) (a1 : IVec S8192 32) (r : Fin 8192)
    (hL : (a1 (ix1 r)).toNat < 32000) :
    val_main_call2_v13 (F := Ideal) a0 a1 (ix2 r (0 : Fin 1))
      = val_main_v0 (F := Ideal) a0 (ix2 r ⟨(a1 (ix1 r)).toNat, hL⟩) := by
  unfold val_main_call2_v13
  have hw := word_at a1 r hL
  have hlt : (val_main_call2_v5 (F := Ideal) a1 (ix3 r (0 : Fin 1) (0 : Fin 1))).toNat < 32000 := by rw [hw]; exact hL
  have hpos : (val_main_call2_v5 (F := Ideal) a1 (ix3 r (0 : Fin 1) (0 : Fin 1))).toNat < 2 ^ 31 := by omega
  refine (Cert.LibTakeAlong.gather_take_along_of_lt gather_S8192x32000_S8192x1x1_S8192x1_n_1_0_0_1_2_11
    rfl rfl rfl rfl rfl rfl rfl (val_main_v0 (F := Ideal) a0) (val_main_call2_v5 (F := Ideal) a1) r hlt hpos).trans ?_
  exact congrArg (fun k : Fin 32000 => val_main_v0 (F := Ideal) a0 (ix2 r k)) (Fin.ext (congrArg BitVec.toNat hw))

theorem shift_at (a0 : FVec Ideal S8192x32000 .f32) (h0 : Cert.Spec.FinLogits a0) (r : Fin 8192) :
    ∃ m : ℝ, val_main_call0_v2 (F := Ideal) a0 (ix1 r) = ((m : ℝ) : EReal) := by
  obtain ⟨m, hm⟩ := Cert.RefFold.rowmax_real a0 h0 (val_main_call0_cst (F := Ideal))
    (fun i => by rw [val_main_call0_cst_apply, Ideal.ofBits_def, Cert.LibEReal.ofBits_neg_inf])
    reducesTo_S8192x32000_S8192_d1 h_S_ r
  refine ⟨m, ?_⟩
  rw [val_main_call0_v2_apply, val_main_call0_v1_apply, val_main_call0_cst_0_apply, Ideal.maximumf_def,
    Ideal.ofBits_def, Cert.LibEReal.ofBits_neg_inf]
  exact hm

theorem lsm_at (a0 : FVec Ideal S8192x32000 .f32) (h0 : Cert.Spec.FinLogits a0) (r : Fin 8192) (k : Fin 32000) :
    ∃ m : ℝ, val_main_v0 (F := Ideal) a0 (ix2 r k)
      = (((Cert.Spec.X a0 r k : ℝ) : EReal) - ((m : ℝ) : EReal))
        - Ideal.log ((0 : EReal) + ∑ j : Fin 32000, Ideal.exp (((Cert.Spec.X a0 r j : ℝ) : EReal) - ((m : ℝ) : EReal))) := by
  obtain ⟨m, hm⟩ := shift_at a0 h0 r
  refine ⟨m, ?_⟩
  have hv4 : ∀ j : Fin 32000, val_main_call0_v4 (F := Ideal) a0 (ix2 r j) = ((m : ℝ) : EReal) := fun j => by
    rw [val_main_call0_v4_apply, e_c0v4, val_main_call0_v3_apply, e_c0v3, hm]
  have hv5 : ∀ j : Fin 32000, val_main_call0_v5 (F := Ideal) a0 (ix2 r j)
      = ((Cert.Spec.X a0 r j : ℝ) : EReal) - ((m : ℝ) : EReal) := fun j => by
    rw [val_main_call0_v5_apply, hv4, Ideal.subf_def, Cert.Spec.logit_eq h0]
  have hsum : (∑ j : Fin 32000, val_main_call0_v6 (F := Ideal) a0 (idx_main_call0_v7 (ix1 r) j))
      = ∑ j : Fin 32000, Ideal.exp (((Cert.Spec.X a0 r j : ℝ) : EReal) - ((m : ℝ) : EReal)) :=
    Finset.sum_congr rfl fun j _ => by rw [e_c0v7, val_main_call0_v6_apply, hv5, Ideal.hostUnary_exp_def]
  rw [val_main_v0_apply, hv5, val_main_call0_v10_apply, e_c0v10, val_main_call0_v9_apply, val_main_call0_v8_apply,
    e_c0v8, val_main_call0_v7_apply, hsum, val_main_call0_cst_1_apply, Ideal.subf_def, Ideal.hostUnary_log_def,
    Ideal.ofBits_def, Ideal.ofBits_zero_f32]

theorem nll_at (a0 : FVec Ideal S8192x32000 .f32) (a1 : IVec S8192 32) (h0 : Cert.Spec.FinLogits a0) (r : Fin 8192)
    (hL : (a1 (ix1 r)).toNat < 32000) :
    val_main_v5 (F := Ideal) a0 a1 (ix1 r) = ((Cert.Spec.nllR a0 r ⟨(a1 (ix1 r)).toNat, hL⟩ : ℝ) : EReal) := by
  obtain ⟨m, hm⟩ := lsm_at a0 h0 r ⟨(a1 (ix1 r)).toNat, hL⟩
  rw [val_main_v5_apply, val_main_v4_apply, e_v4, val_main_v3_apply, mask_at a1 r hL, select_one, take_at a0 a1 r hL,
    hm, Ideal.hostNegf_def, Ideal.negf_def]
  exact Cert.RefMath.nll_row (Cert.Spec.X a0 r) m _

theorem nll_eq (a0 : FVec Ideal S8192x32000 .f32) (a1 : IVec S8192 32) (h0 : Cert.Spec.FinLogits a0)
    (h1 : Cert.Spec.LabelOk a1) (i : S8192.Idx) (hi : a1 i ≠ 4294967196#32) :
    val_main_v5 (F := Ideal) a0 a1 i = Cert.Spec.nllSpec a0 a1 i := by
  obtain ⟨r, rfl⟩ : ∃ r : Fin 8192, i = ix1 r := ⟨i 0, eq_ix1 i⟩
  have hL : (a1 (ix1 r)).toNat < 32000 := (h1 r).resolve_right hi
  rw [nll_at a0 a1 h0 r hL]
  unfold Cert.Spec.nllSpec
  rw [dif_pos hL]

end Cert.ReferenceIdeal.RefCe

end
-- ==== Proof.RefPen.lean ====
/- On real queries the reference's total is the sum over row pairs of exp(-dist)^2. -/
import proofs.«410698_j38302518346315_1_alg».proof.Proof.RefRead
import proofs.«410698_j38302518346315_1_alg».proof.Proof.Spec
import proofs.«410698_j38302518346315_1_alg».proof.Proof.LibEReal
import proofs.«410698_j38302518346315_1_alg».proof.Proof.LibTakeAlong
import proofs.«410698_j38302518346315_1_alg».proof.Proof.RefMath
import proofs.«410698_j38302518346315_1_alg».proof.Proof.RefFold
import Idealize.ShloMosaic.Lib.ValueIdx
import Idealize.ShloMosaic.Lib.StableHlo.Predicate
import Idealize.ShloMosaic.PureOps.Ideal.Laws

noncomputable section

open scoped BigOperators

namespace Cert.ReferenceIdeal.RefPen

open Idealize.ShloMosaic Idealize.ShloMosaic.ValueIdx Cert.ReferenceIdeal Cert.ReferenceIdeal.Gen Cert.ReferenceIdeal.ReadP

theorem e_v16 (i : Fin 8192) (k : Fin 512) : idx_main_v16 (ix1 i) k = ix2 i k :=
  funext fun a => Fin.ext (by match a with | ⟨0, _⟩ => rfl | ⟨1, _⟩ => rfl)
theorem e_v17 (i : Fin 8192) : idx_main_v17 (ix2 i (0 : Fin 1)) = ix1 i :=
  funext fun a => Fin.ext (by match a with | ⟨0, _⟩ => rfl)
theorem e_v18 (j : Fin 8192) : idx_main_v18 (ix2 (0 : Fin 1) j) = ix1 j :=
  funext fun a => Fin.ext (by match a with | ⟨0, _⟩ => rfl)
theorem e_v19 (i j : Fin 8192) : idx_main_v19 (ix2 i j) = ix2 i (0 : Fin 1) :=
  funext fun a => Fin.ext (by match a with | ⟨0, _⟩ => rfl | ⟨1, _⟩ => rfl)
theorem e_v20 (i j : Fin 8192) : idx_main_v20 (ix2 i j) = ix2 (0 : Fin 1) j :=
  funext fun a => Fin.ext (by match a with | ⟨0, _⟩ => rfl | ⟨1, _⟩ => rfl)
theorem e_v22 (k : Fin 512) (j : Fin 8192) : idx_main_v22 (ix2 k j) = ix2 j k :=
  funext fun a => Fin.ext (by match a with | ⟨0, _⟩ => rfl | ⟨1, _⟩ => rfl)
theorem e_lv23 (i j : Fin 8192) (k : Fin 512) : lidx_main_v23 (ix2 i j) k = ix2 i k :=
  funext fun a => Fin.ext (by match a with | ⟨0, _⟩ => rfl | ⟨1, _⟩ => rfl)
theorem e_rv23 (i j : Fin 8192) (k : Fin 512) : ridx_main_v23 (ix2 i j) k = ix2 k j :=
  funext fun a => Fin.ext (by match a with | ⟨0, _⟩ => rfl | ⟨1, _⟩ => rfl)

theorem sqn_at (a2 : FVec Ideal S8192x512 .f32) (h2 : Cert.Spec.FinQuery a2) (i : Fin 8192) :
    val_main_v16 (F := Ideal) a2 (ix1 i) = ((Cert.Spec.sqn a2 i : ℝ) : EReal) := by
  unfold Cert.Spec.sqn
  have hsum : (∑ k : Fin 512, val_main_v15 (F := Ideal) a2 (idx_main_v16 (ix1 i) k))
      = ∑ k : Fin 512, ((Cert.Spec.Qr a2 i k * Cert.Spec.Qr a2 i k : ℝ) : EReal) :=
    Finset.sum_congr rfl fun k _ => by
      rw [e_v16, val_main_v15_apply, Ideal.mulf_def, Cert.Spec.query_eq h2, ← EReal.coe_mul]
  rw [val_main_v16_apply, hsum, val_main_cst_5_apply, Ideal.ofBits_def, Ideal.ofBits_zero_f32, zero_add,
    Cert.LibEReal.coe_sum]

theorem gram_at (a2 : FVec Ideal S8192x512 .f32) (h2 : Cert.Spec.FinQuery a2) (i j : Fin 8192) :
    val_main_v23 (F := Ideal) a2 (ix2 i j) = ((Cert.Spec.gram a2 i j : ℝ) : EReal) := by
  unfold Cert.Spec.gram
  have hsum : (∑ k : Fin 512, a2 (lidx_main_v23 (ix2 i j) k) * val_main_v22 (F := Ideal) a2 (ridx_main_v23 (ix2 i j) k))
      = ∑ k : Fin 512, ((Cert.Spec.Qr a2 i k * Cert.Spec.Qr a2 j k : ℝ) : EReal) :=
    Finset.sum_congr rfl fun k _ => by
      rw [e_lv23, e_rv23, val_main_v22_apply, e_v22, Cert.Spec.query_eq h2, Cert.Spec.query_eq h2, ← EReal.coe_mul]
  rw [val_main_v23_apply, hsum, Cert.LibEReal.coe_sum]

theorem d2_at (a2 : FVec Ideal S8192x512 .f32) (h2 : Cert.Spec.FinQuery a2) (i j : Fin 8192) :
    val_main_v28 (F := Ideal) a2 (ix2 i j) = ((Cert.Spec.d2 a2 i j : ℝ) : EReal) := by
  rw [val_main_v28_apply, val_main_v26_apply, val_main_v21_apply, val_main_v19_apply, e_v19, val_main_v17_apply, e_v17,
    val_main_v20_apply, e_v20, val_main_v18_apply, e_v18, sqn_at a2 h2 i, sqn_at a2 h2 j, val_main_v25_apply,
    val_main_v24_apply, val_main_cst_6_apply, gram_at a2 h2, val_main_v27_apply, val_main_cst_7_apply]
  simp only [Ideal.maximumf_def, Ideal.subf_def, Ideal.addf_def, Ideal.mulf_def, Ideal.ofBits_def]
  exact Cert.RefMath.d2_coe _ _ _

theorem sim_at (a2 : FVec Ideal S8192x512 .f32) (h2 : Cert.Spec.FinQuery a2) (i j : Fin 8192) :
    val_main_v39 (F := Ideal) a2 (ix2 i j) = ((Cert.Spec.simR a2 i j : ℝ) : EReal) := by
  have hd := d2_at a2 h2 i j
  rw [val_main_v39_apply, val_main_v38_apply, val_main_v36_apply, val_main_v35_apply, val_main_v34_apply,
    val_main_v32_apply, val_main_v31_apply, val_main_v30_apply, hd, val_main_v29_apply, val_main_cst_8_apply,
    val_main_call4_v1_apply, val_main_call4_v0_apply, val_main_cst_9_apply, val_main_v33_apply, val_main_cst_10_apply,
    val_main_call5_v1_apply, val_main_call5_v0_apply, val_main_cst_11_apply, val_main_v37_apply, val_main_cst_12_apply]
  simp only [Ideal.hostUnary_exp_def, Ideal.hostDivf_def, Ideal.hostNegf_def, Ideal.negf_def, Ideal.hostUnary_sqrt_def,
    Ideal.cmpf_def, Ideal.ofBits_def]
  exact Cert.RefMath.sim_of_d2 _ (by unfold Cert.Spec.d2; exact le_max_right _ _)

theorem sq_at (a2 : FVec Ideal S8192x512 .f32) (h2 : Cert.Spec.FinQuery a2) (i j : Fin 8192) :
    val_main_v40 (F := Ideal) a2 (ix2 i j) = ((Cert.Spec.simR a2 i j * Cert.Spec.simR a2 i j : ℝ) : EReal) := by
  rw [val_main_v40_apply, sim_at a2 h2, Ideal.mulf_def, ← EReal.coe_mul]

theorem tot_eq (a2 : FVec Ideal S8192x512 .f32) (h2 : Cert.Spec.FinQuery a2) :
    val_main_v41 (F := Ideal) a2 = Cert.Spec.totSpec a2 := by
  funext i
  show val_main_v41 (F := Ideal) a2 i = ((Cert.Spec.totR a2 : ℝ) : EReal)
  have hsum : (∑ j : S8192x8192.Idx, val_main_v40 (F := Ideal) a2 j) = ((Cert.Spec.totR a2 : ℝ) : EReal) := by
    rw [sum_idx2]
    unfold Cert.Spec.totR
    rw [← Cert.LibEReal.coe_sum]
    refine Finset.sum_congr rfl fun a _ => ?_
    rw [← Cert.LibEReal.coe_sum]
    exact Finset.sum_congr rfl fun b _ => sq_at a2 h2 a b
  rw [val_main_v41_apply, hsum, val_main_cst_13_apply, Ideal.ofBits_def, Ideal.ofBits_zero_f32, zero_add]

end Cert.ReferenceIdeal.RefPen

end
-- ==== Proof.RefResult.lean ====
/- The reference's last stages applied to its row losses and total give the common value. -/
import proofs.«410698_j38302518346315_1_alg».proof.Proof.RefRead
import proofs.«410698_j38302518346315_1_alg».proof.Proof.Spec
import proofs.«410698_j38302518346315_1_alg».proof.Proof.RefCe
import proofs.«410698_j38302518346315_1_alg».proof.Proof.RefPen
import Idealize.ShloMosaic.Lib.ValueIdx

noncomputable section

namespace Cert.ReferenceIdeal.RefResult

open Idealize.ShloMosaic Idealize.ShloMosaic.TcCoe Idealize.SL.Sem Idealize.ShloMosaic.ValueIdx
open Cert.ReferenceIdeal Cert.ReferenceIdeal.Gen Cert.ReferenceIdeal.ReadP

theorem shape_eq (a0 : FVec Ideal S8192x32000 .f32) (a1 : IVec S8192 32) (a2 : FVec Ideal S8192x512 .f32) :
    val_main_v43 (F := Ideal) a0 a1 a2
      = Cert.Spec.resOf a1 (val_main_v5 (F := Ideal) a0 a1) (val_main_v41 (F := Ideal) a2) := by
  unfold val_main_v43 val_main_v42 val_main_v14 val_main_v13 val_main_v12 val_main_v11 val_main_v10 val_main_v9 val_main_v8
    val_main_v7 val_main_v6 val_main_c_1 val_main_c_2 val_main_c_3 val_main_cst_4 val_main_call3_v1
    val_main_call3_v0 val_main_cst Cert.Spec.resOf Cert.Spec.ceOf Cert.Spec.masked Cert.Spec.numValid Cert.Spec.validMask
  rfl

theorem value_eq (a0 : FVec Ideal S8192x32000 .f32) (a1 : IVec S8192 32) (a2 : FVec Ideal S8192x512 .f32)
    (h0 : Cert.Spec.FinLogits a0) (h1 : Cert.Spec.LabelOk a1) (h2 : Cert.Spec.FinQuery a2) :
    val_main_v43 (F := Ideal) a0 a1 a2 = Cert.Spec.result a0 a1 a2 := by
  rw [shape_eq, Cert.ReferenceIdeal.RefPen.tot_eq a2 h2,
    Cert.Spec.resOf_congr a1 _ _ _ (fun i hi => Cert.ReferenceIdeal.RefCe.nll_eq a0 a1 h0 h1 i hi)]
  rfl

end Cert.ReferenceIdeal.RefResult

end
-- ==== Proof.RefChunks.lean ====
/- The reference's 106 operations cut into seven stretches, each with the list of arrays it writes. -/
import proofs.«410698_j38302518346315_1_alg».proof.Proof.RefRun
import proofs.«410698_j38302518346315_1_alg».proof.Proof.RefRead
import Idealize.ShloMosaic.Lib.StableHlo.Run
import Idealize.ShloMosaic.Lib.Pipeline.Frame

noncomputable section

namespace Cert.ReferenceIdeal.RefChunks

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem ofBuf_toBuf {T : BufTy} (x : TRef sig T) (v : T.Contents (Elt F)) : x.ofBuf (x.toBuf v) = v := by
  obtain ⟨r, h, h', h''⟩ := x
  subst h
  rfl

abbrev ops1 : List (HloOp τ sig (Elt F)) := (Cert.ReferenceIdeal.ValueP.ops (F := F)).take 15
abbrev ops1_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v0]

abbrev ops2 : List (HloOp τ sig (Elt F)) := ((Cert.ReferenceIdeal.ValueP.ops (F := F)).drop 15).take 9
abbrev ops2_W : List (Ref sig .tc) := [main_c, main_c_0, main_call1_v0, main_call1_v1, main_call1_v2, main_call1_v3, main_call1_v4, main_v1, main_v2]

abbrev ops3 : List (HloOp τ sig (Elt F)) := ((Cert.ReferenceIdeal.ValueP.ops (F := F)).drop 24).take 24
abbrev ops3_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v3, main_v4, main_v5]

abbrev ops4 : List (HloOp τ sig (Elt F)) := ((Cert.ReferenceIdeal.ValueP.ops (F := F)).drop 48).take 16
abbrev ops4_W : List (Ref sig .tc) := [main_c_1, main_v6, main_v7, main_v8, main_c_2, main_v9, main_c_3, main_v10, main_cst, main_call3_v0, main_call3_v1, main_v11, main_cst_4, main_v12, main_v13, main_v14]

abbrev ops5 : List (HloOp τ sig (Elt F)) := ((Cert.ReferenceIdeal.ValueP.ops (F := F)).drop 64).take 17
abbrev ops5_W : List (Ref sig .tc) := [main_v15, main_cst_5, main_v16, main_v17, main_v18, main_v19, main_v20, main_v21, main_v22, main_v23, main_cst_6, main_v24, main_v25, main_v26, main_cst_7, main_v27, main_v28]

abbrev ops6 : List (HloOp τ sig (Elt F)) := ((Cert.ReferenceIdeal.ValueP.ops (F := F)).drop 81).take 23
abbrev ops6_W : List (Ref sig .tc) := [main_cst_8, main_v29, main_v30, main_cst_9, main_call4_v0, main_call4_v1, main_v31, main_v32, main_cst_10, main_v33, main_v34, main_cst_11, main_call5_v0, main_call5_v1, main_v35, main_v36, main_cst_12, main_v37, main_v38, main_v39, main_v40, main_cst_13, main_v41]

abbrev ops7 : List (HloOp τ sig (Elt F)) := (Cert.ReferenceIdeal.ValueP.ops (F := F)).drop 104
abbrev ops7_W : List (Ref sig .tc) := [main_v42, main_v43]

theorem ops_eq : (Cert.ReferenceIdeal.ValueP.ops : List (HloOp τ sig (Elt F)))
    = ops1 ++ (ops2 ++ (ops3 ++ (ops4 ++ (ops5 ++ (ops6 ++ ops7))))) := rfl

abbrev WritesIn (ops : List (HloOp τ sig (Elt F))) (Wl : List (Ref sig .tc)) : Prop :=
  ops.Forall fun op => op.writes ⊆ (Wl.map (Proc.devRef (τ := τ) .tc)).toFinset

/-- Each operation writes one array, which is in its stretch's list. -/
theorem writes_in : WritesIn (F := F) ops1 ops1_W ∧ WritesIn (F := F) ops2 ops2_W ∧ WritesIn (F := F) ops3 ops3_W
    ∧ WritesIn (F := F) ops4 ops4_W ∧ WritesIn (F := F) ops5 ops5_W ∧ WritesIn (F := F) ops6 ops6_W
    ∧ WritesIn (F := F) ops7 ops7_W := by
  refine ⟨?_, ?_, ?_, ?_, ?_, ?_, ?_⟩ <;>
    simp only [WritesIn, ops1, ops2, ops3, ops4, ops5, ops6, ops7, Cert.ReferenceIdeal.ValueP.ops, List.take_succ_cons, List.take_zero, List.drop_succ_cons, List.drop_zero,
      List.Forall, nullary_writes, unary_writes, binary_writes, ternary_writes, reshape_writes,
      Finset.singleton_subset_iff, List.mem_toFinset] <;>
    (repeat' apply And.intro) <;> exact List.mem_map_of_mem (by decide)

theorem keep1 (W : Valuation τ sig (Elt F)) (r : Ref sig .tc) (h : r ∉ ops1_W) :
    after (ops1 : List (HloOp τ sig (Elt F))) W (Proc.devRef .tc r) = W (Proc.devRef .tc r) :=
  after_of_writes_sub ops1 _ writes_in.1 h
theorem keep2 (W : Valuation τ sig (Elt F)) (r : Ref sig .tc) (h : r ∉ ops2_W) :
    after (ops2 : List (HloOp τ sig (Elt F))) W (Proc.devRef .tc r) = W (Proc.devRef .tc r) :=
  after_of_writes_sub ops2 _ writes_in.2.1 h
theorem keep3 (W : Valuation τ sig (Elt F)) (r : Ref sig .tc) (h : r ∉ ops3_W) :
    after (ops3 : List (HloOp τ sig (Elt F))) W (Proc.devRef .tc r) = W (Proc.devRef .tc r) :=
  after_of_writes_sub ops3 _ writes_in.2.2.1 h
theorem keep4 (W : Valuation τ sig (Elt F)) (r : Ref sig .tc) (h : r ∉ ops4_W) :
    after (ops4 : List (HloOp τ sig (Elt F))) W (Proc.devRef .tc r) = W (Proc.devRef .tc r) :=
  after_of_writes_sub ops4 _ writes_in.2.2.2.1 h
theorem keep5 (W : Valuation τ sig (Elt F)) (r : Ref sig .tc) (h : r ∉ ops5_W) :
    after (ops5 : List (HloOp τ sig (Elt F))) W (Proc.devRef .tc r) = W (Proc.devRef .tc r) :=
  after_of_writes_sub ops5 _ writes_in.2.2.2.2.1 h
theorem keep6 (W : Valuation τ sig (Elt F)) (r : Ref sig .tc) (h : r ∉ ops6_W) :
    after (ops6 : List (HloOp τ sig (Elt F))) W (Proc.devRef .tc r) = W (Proc.devRef .tc r) :=
  after_of_writes_sub ops6 _ writes_in.2.2.2.2.2.1 h
theorem keep7 (W : Valuation τ sig (Elt F)) (r : Ref sig .tc) (h : r ∉ ops7_W) :
    after (ops7 : List (HloOp τ sig (Elt F))) W (Proc.devRef .tc r) = W (Proc.devRef .tc r) :=
  after_of_writes_sub ops7 _ writes_in.2.2.2.2.2.2 h

end Cert.ReferenceIdeal.RefChunks

end
-- ==== Proof.RefChunk1.lean ====
/- Stretch 1 leaves the log-softmax of the logits. -/
import proofs.«410698_j38302518346315_1_alg».proof.Proof.RefChunks

noncomputable section

namespace Cert.ReferenceIdeal.RefChunks

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem chunk1 (W : Valuation τ sig (Elt F)) :
    after (ops1 : List (HloOp τ sig (Elt F))) W (Proc.devRef .tc main_v0) = val_main_v0 (F := F) (W (Proc.devRef .tc main_arg0)) := by
  simp only [ops1, Cert.ReferenceIdeal.ValueP.ops, List.take_succ_cons, List.take_zero, List.drop_succ_cons, List.drop_zero]
  after_results_simp
  simp only [ofBuf_toBuf]
  rw [show (TRef.of (T := ⟨S8192x32000, .f32⟩) main_arg0).ofBuf (W (Proc.devRef .tc main_arg0))
    = W (Proc.devRef .tc main_arg0) from rfl]
  show (TRef.of (T := ⟨S8192x32000, .f32⟩) main_v0).toBuf _
    = (TRef.of (T := ⟨S8192x32000, .f32⟩) main_v0).toBuf (val_main_v0 (F := F) (W (Proc.devRef .tc main_arg0)))
  refine congrArg _ ?_
  unfold val_main_v0 val_main_call0_v10 val_main_call0_v9 val_main_call0_v8 val_main_call0_v7 val_main_call0_cst_1
    val_main_call0_v6 val_main_call0_v5 val_main_call0_v4 val_main_call0_v3 val_main_call0_v2 val_main_call0_v1
    val_main_call0_cst_0 val_main_call0_v0 val_main_call0_cst
  with_reducible rfl

end Cert.ReferenceIdeal.RefChunks

end
-- ==== Proof.RefChunk2.lean ====
/- Stretch 2 leaves the labels clipped into [0, 31999], as a column. -/
import proofs.«410698_j38302518346315_1_alg».proof.Proof.RefChunks

noncomputable section

namespace Cert.ReferenceIdeal.RefChunks

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem chunk2 (W : Valuation τ sig (Elt F)) :
    after (ops2 : List (HloOp τ sig (Elt F))) W (Proc.devRef .tc main_v2) = val_main_v2 (F := F) (W (Proc.devRef .tc main_arg1)) := by
  simp only [ops2, Cert.ReferenceIdeal.ValueP.ops, List.take_succ_cons, List.take_zero, List.drop_succ_cons, List.drop_zero]
  after_results_simp
  simp only [TRef.ofBuf, TRef.toBuf, cast_eq]
  unfold val_main_v2 val_main_v1 val_main_call1_v4 val_main_call1_v3 val_main_c_0 val_main_call1_v2 val_main_call1_v1 val_main_call1_v0 val_main_c
  rfl

end Cert.ReferenceIdeal.RefChunks

end
-- ==== Proof.RefChunk3.lean ====
/- Stretch 3 leaves the negated take of the log-softmax at the clipped labels. -/
import proofs.«410698_j38302518346315_1_alg».proof.Proof.RefChunks

noncomputable section

namespace Cert.ReferenceIdeal.RefChunks

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem chunk3 (W : Valuation τ sig (Elt F)) (a0 : (⟨S8192x32000, .f32⟩ : BufTy).Contents (Elt F))
    (a1 : (⟨S8192, .i32⟩ : BufTy).Contents (Elt F))
    (h0 : W (Proc.devRef .tc main_v0) = val_main_v0 (F := F) a0)
    (h2 : W (Proc.devRef .tc main_v2) = val_main_v2 (F := F) a1) :
    after (ops3 : List (HloOp τ sig (Elt F))) W (Proc.devRef .tc main_v5) = val_main_v5 (F := F) a0 a1 := by
  simp only [ops3, Cert.ReferenceIdeal.ValueP.ops, List.take_succ_cons, List.take_zero, List.drop_succ_cons, List.drop_zero]
  after_results_simp
  simp only [TRef.ofBuf, TRef.toBuf, cast_eq, h0, h2]
  unfold val_main_v5 val_main_v4 val_main_v3 val_main_call2_v14 val_main_call2_cst val_main_call2_v13 val_main_call2_v12 val_main_call2_c_3 val_main_call2_v11 val_main_call2_v10 val_main_call2_v9 val_main_call2_v8 val_main_call2_v7 val_main_call2_v6 val_main_call2_c_2 val_main_call2_c_1 val_main_call2_v5 val_main_call2_v4 val_main_call2_v3 val_main_call2_v2 val_main_call2_c_0 val_main_call2_v1 val_main_call2_v0 val_main_call2_c
  rfl

end Cert.ReferenceIdeal.RefChunks

end
-- ==== Proof.RefChunk4.lean ====
/- Stretch 4 leaves the mean of the row losses over the non-ignored rows. -/
import proofs.«410698_j38302518346315_1_alg».proof.Proof.RefChunks

noncomputable section

namespace Cert.ReferenceIdeal.RefChunks

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem chunk4 (W : Valuation τ sig (Elt F)) (a0 : (⟨S8192x32000, .f32⟩ : BufTy).Contents (Elt F))
    (a1 : (⟨S8192, .i32⟩ : BufTy).Contents (Elt F))
    (h5 : W (Proc.devRef .tc main_v5) = val_main_v5 (F := F) a0 a1)
    (h1 : W (Proc.devRef .tc main_arg1) = a1) :
    after (ops4 : List (HloOp τ sig (Elt F))) W (Proc.devRef .tc main_v14) = val_main_v14 (F := F) a0 a1 := by
  simp only [ops4, Cert.ReferenceIdeal.ValueP.ops, List.take_succ_cons, List.take_zero, List.drop_succ_cons, List.drop_zero]
  after_results_simp
  simp only [TRef.ofBuf, TRef.toBuf, cast_eq, h5, h1]
  unfold val_main_v14 val_main_v13 val_main_v12 val_main_v11 val_main_v10 val_main_v9 val_main_v8 val_main_v7 val_main_v6
    val_main_call3_v1 val_main_call3_v0 val_main_cst_4 val_main_cst val_main_c_3 val_main_c_2 val_main_c_1
  rfl

end Cert.ReferenceIdeal.RefChunks

end
-- ==== Proof.RefChunk5.lean ====
/- Stretch 5 leaves the clamped squared distances of all pairs of query rows. -/
import proofs.«410698_j38302518346315_1_alg».proof.Proof.RefChunks

noncomputable section

namespace Cert.ReferenceIdeal.RefChunks

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem chunk5 (W : Valuation τ sig (Elt F)) :
    after (ops5 : List (HloOp τ sig (Elt F))) W (Proc.devRef .tc main_v28) = val_main_v28 (F := F) (W (Proc.devRef .tc main_arg2)) := by
  simp only [ops5, Cert.ReferenceIdeal.ValueP.ops, List.take_succ_cons, List.take_zero, List.drop_succ_cons, List.drop_zero]
  after_results_simp
  unfold val_main_v28 val_main_v26 val_main_v27 val_main_cst_7 val_main_v25 val_main_v24 val_main_cst_6 val_main_v23 val_main_v22
    val_main_v21 val_main_v20 val_main_v19 val_main_v18 val_main_v17 val_main_v16 val_main_cst_5 val_main_v15
  rfl

end Cert.ReferenceIdeal.RefChunks

end
-- ==== Proof.RefChunk6.lean ====
/- Stretch 6 leaves the sum of the squared similarities. -/
import proofs.«410698_j38302518346315_1_alg».proof.Proof.RefChunks

noncomputable section

namespace Cert.ReferenceIdeal.RefChunks

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem chunk6 (W : Valuation τ sig (Elt F)) (a2 : (⟨S8192x512, .f32⟩ : BufTy).Contents (Elt F))
    (h28 : W (Proc.devRef .tc main_v28) = val_main_v28 (F := F) a2) :
    after (ops6 : List (HloOp τ sig (Elt F))) W (Proc.devRef .tc main_v41) = val_main_v41 (F := F) a2 := by
  simp only [ops6, Cert.ReferenceIdeal.ValueP.ops, List.take_succ_cons, List.take_zero, List.drop_succ_cons, List.drop_zero]
  after_results_simp
  simp only [TRef.ofBuf, TRef.toBuf, cast_eq, h28]
  unfold val_main_v41 val_main_cst_13 val_main_v40 val_main_v39 val_main_v38 val_main_v37 val_main_cst_12 val_main_v36
    val_main_v35 val_main_call5_v1 val_main_call5_v0 val_main_cst_11 val_main_v34 val_main_v33 val_main_cst_10
    val_main_v32 val_main_v31 val_main_call4_v1 val_main_call4_v0 val_main_cst_9 val_main_v30 val_main_v29 val_main_cst_8
  rfl

end Cert.ReferenceIdeal.RefChunks

end
-- ==== Proof.RefChunk7.lean ====
/- Stretch 7 leaves the mean plus the square root of the sum. -/
import proofs.«410698_j38302518346315_1_alg».proof.Proof.RefChunks

noncomputable section

namespace Cert.ReferenceIdeal.RefChunks

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem chunk7 (W : Valuation τ sig (Elt F)) (a0 : (⟨S8192x32000, .f32⟩ : BufTy).Contents (Elt F))
    (a1 : (⟨S8192, .i32⟩ : BufTy).Contents (Elt F)) (a2 : (⟨S8192x512, .f32⟩ : BufTy).Contents (Elt F))
    (h14 : W (Proc.devRef .tc main_v14) = val_main_v14 (F := F) a0 a1)
    (h41 : W (Proc.devRef .tc main_v41) = val_main_v41 (F := F) a2) :
    after (ops7 : List (HloOp τ sig (Elt F))) W (Proc.devRef .tc main_v43) = val_main_v43 (F := F) a0 a1 a2 := by
  simp only [ops7, Cert.ReferenceIdeal.ValueP.ops, List.take_succ_cons, List.take_zero, List.drop_succ_cons, List.drop_zero]
  after_results_simp
  rw [h14, h41]
  unfold val_main_v43 val_main_v42
  rfl

end Cert.ReferenceIdeal.RefChunks

end
-- ==== Proof.RefJoin.lean ====
/- The seven stretches joined: each reads what earlier ones left, which the ones between do not write. -/
import proofs.«410698_j38302518346315_1_alg».proof.Proof.RefChunks
import proofs.«410698_j38302518346315_1_alg».proof.Proof.RefChunk1
import proofs.«410698_j38302518346315_1_alg».proof.Proof.RefChunk2
import proofs.«410698_j38302518346315_1_alg».proof.Proof.RefChunk3
import proofs.«410698_j38302518346315_1_alg».proof.Proof.RefChunk4
import proofs.«410698_j38302518346315_1_alg».proof.Proof.RefChunk5
import proofs.«410698_j38302518346315_1_alg».proof.Proof.RefChunk6
import proofs.«410698_j38302518346315_1_alg».proof.Proof.RefChunk7

noncomputable section

namespace Cert.ReferenceIdeal.RefChunks

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem keep_all (V : Valuation τ sig (Elt F)) (r : Ref sig .tc)
    (h1 : r ∉ ops1_W) (h2 : r ∉ ops2_W) (h3 : r ∉ ops3_W) (h4 : r ∉ ops4_W) (h5 : r ∉ ops5_W) (h6 : r ∉ ops6_W)
    (h7 : r ∉ ops7_W) :
    after (Cert.ReferenceIdeal.ValueP.ops : List (HloOp τ sig (Elt F))) V (Proc.devRef .tc r) = V (Proc.devRef .tc r) := by
  rw [ops_eq, StableHlo.after_append, StableHlo.after_append, StableHlo.after_append, StableHlo.after_append,
    StableHlo.after_append, StableHlo.after_append, keep7 _ r h7, keep6 _ r h6, keep5 _ r h5, keep4 _ r h4, keep3 _ r h3,
    keep2 _ r h2, keep1 _ r h1]

theorem after_result (V : Valuation τ sig (Elt F)) :
    after (Cert.ReferenceIdeal.ValueP.ops : List (HloOp τ sig (Elt F))) V (Proc.devRef .tc main_v43)
      = val_main_v43 (F := F) (V (Proc.devRef .tc main_arg0)) (V (Proc.devRef .tc main_arg1))
          (V (Proc.devRef .tc main_arg2)) := by
  rw [ops_eq, StableHlo.after_append, StableHlo.after_append, StableHlo.after_append, StableHlo.after_append,
    StableHlo.after_append, StableHlo.after_append]
  generalize hV1 : after (ops1 : List (HloOp τ sig (Elt F))) V = V1
  generalize hV2 : after (ops2 : List (HloOp τ sig (Elt F))) V1 = V2
  generalize hV3 : after (ops3 : List (HloOp τ sig (Elt F))) V2 = V3
  generalize hV4 : after (ops4 : List (HloOp τ sig (Elt F))) V3 = V4
  generalize hV5 : after (ops5 : List (HloOp τ sig (Elt F))) V4 = V5
  generalize hV6 : after (ops6 : List (HloOp τ sig (Elt F))) V5 = V6
  have e0 : V2 (Proc.devRef .tc main_v0) = val_main_v0 (F := F) (V (Proc.devRef .tc main_arg0)) := by
    rw [← hV2, keep2 _ main_v0 (by decide), ← hV1]; exact chunk1 V
  have a1_1 : V1 (Proc.devRef .tc main_arg1) = V (Proc.devRef .tc main_arg1) := by
    rw [← hV1]; exact keep1 _ main_arg1 (by decide)
  have a1_3 : V3 (Proc.devRef .tc main_arg1) = V (Proc.devRef .tc main_arg1) := by
    rw [← hV3, keep3 _ main_arg1 (by decide), ← hV2, keep2 _ main_arg1 (by decide)]; exact a1_1
  have e2 : V2 (Proc.devRef .tc main_v2) = val_main_v2 (F := F) (V (Proc.devRef .tc main_arg1)) := by
    rw [← hV2, chunk2 V1, a1_1]
  have e5 : V3 (Proc.devRef .tc main_v5)
      = val_main_v5 (F := F) (V (Proc.devRef .tc main_arg0)) (V (Proc.devRef .tc main_arg1)) := by
    rw [← hV3]; exact chunk3 V2 _ _ e0 e2
  have e14 : V6 (Proc.devRef .tc main_v14)
      = val_main_v14 (F := F) (V (Proc.devRef .tc main_arg0)) (V (Proc.devRef .tc main_arg1)) := by
    rw [← hV6, keep6 _ main_v14 (by decide), ← hV5, keep5 _ main_v14 (by decide), ← hV4]
    exact chunk4 V3 _ _ e5 a1_3
  have a2_4 : V4 (Proc.devRef .tc main_arg2) = V (Proc.devRef .tc main_arg2) := by
    rw [← hV4, keep4 _ main_arg2 (by decide), ← hV3, keep3 _ main_arg2 (by decide), ← hV2,
      keep2 _ main_arg2 (by decide), ← hV1]
    exact keep1 _ main_arg2 (by decide)
  have e28 : V5 (Proc.devRef .tc main_v28) = val_main_v28 (F := F) (V (Proc.devRef .tc main_arg2)) := by
    rw [← hV5, chunk5 V4, a2_4]
  have e41 : V6 (Proc.devRef .tc main_v41) = val_main_v41 (F := F) (V (Proc.devRef .tc main_arg2)) := by
    rw [← hV6]; exact chunk6 V5 _ e28
  exact chunk7 V6 _ _ _ e14 e41

end Cert.ReferenceIdeal.RefChunks

end
-- ==== Proof.RefValue.lean ====
/- The reference's run ends with the common value and the arguments unchanged. -/
import proofs.«410698_j38302518346315_1_alg».proof.Defs
import proofs.«410698_j38302518346315_1_alg».proof.Proof.RefRun
import proofs.«410698_j38302518346315_1_alg».proof.Proof.RefRead
import proofs.«410698_j38302518346315_1_alg».proof.Proof.RefResult
import proofs.«410698_j38302518346315_1_alg».proof.Proof.RefJoin
import proofs.«410698_j38302518346315_1_alg».proof.Proof.Spec
import proofs.«410698_j38302518346315_1_alg».proof.Proof.LibStream
import proofs.«410698_j38302518346315_1_alg».proof.Proof.LibTakeAlong
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

open scoped BigOperators

namespace Cert.ReferenceIdeal.RefValue

open Idealize.ShloMosaic Idealize.ShloMosaic.TcCoe Idealize.SL.Sem Idealize.ShloMosaic.ValueIdx
open Cert.ReferenceIdeal

theorem run_result (m : (ℓ : Loc nD τ sig) → Buf (Elt Ideal) ℓ) (ρ : Dev nD → PrngReg)
    (h0 : ∀ c : Dev nD, Cert.Spec.FinLogits (m ((c.tc : Thread nD τ).loc main_arg0)))
    (h1 : ∀ c : Dev nD, Cert.Spec.LabelOk (m ((c.tc : Thread nD τ).loc main_arg1)))
    (h2 : ∀ c : Dev nD, Cert.Spec.FinQuery (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v43)
          = Cert.Spec.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono
    (fun _ h c => ⟨((h c main_v43).trans
          (Cert.ReferenceIdeal.RefChunks.after_result (F := Ideal) (StableHlo.launchContents m c))).trans
          (Cert.ReferenceIdeal.RefResult.value_eq _ _ _ (h0 c) (h1 c) (h2 c)),
        (h c main_arg0).trans (Cert.ReferenceIdeal.RefChunks.keep_all _ main_arg0
          (by decide) (by decide) (by decide) (by decide) (by decide) (by decide) (by decide)),
        (h c main_arg1).trans (Cert.ReferenceIdeal.RefChunks.keep_all _ main_arg1
          (by decide) (by decide) (by decide) (by decide) (by decide) (by decide) (by decide)),
        (h c main_arg2).trans (Cert.ReferenceIdeal.RefChunks.keep_all _ main_arg2
          (by decide) (by decide) (by decide) (by decide) (by decide) (by decide) (by decide))⟩)
    (StableHlo.run_seq Cert.ReferenceIdeal.ValueP.scopedRefs_eq Cert.ReferenceIdeal.ValueP.scopedSems_eq
      (defs (F := Ideal)) (main (F := Ideal)) (fun _ => Cert.ReferenceIdeal.ValueP.ops)
      Cert.ReferenceIdeal.ValueP.main_eq (fun _ => Cert.ReferenceIdeal.ValueP.ops_sub) m ρ)

end Cert.ReferenceIdeal.RefValue

end
-- ==== Proof.PreFacts.lean ====
/- The precondition read out: logits and queries are real numbers, each label is a column or -100. -/
import proofs.«410698_j38302518346315_1_alg».proof.Defs
import proofs.«410698_j38302518346315_1_alg».proof.Proof.Gen.Pre_finite_inputs
import proofs.«410698_j38302518346315_1_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Idealize.ShloMosaic.ValueIdx

variable [Cert.Pre_finite_inputs.Facts]

instance subsingleton_scalar_idx : Subsingleton Cert.Pre_finite_inputs.S_.Idx :=
  ⟨fun _ _ => funext fun d => d.elim0⟩

theorem inf_pattern : Ideal.ofBits .f32 0x7F800000#32 = (⊤ : EReal) := by
  simp [Ideal.ofBits, Ideal.ieee]

theorem real_of_abs_lt_inf (x : Ideal .f32)
    (e : FloatOps.cmpf .olt (FloatOps.hostAbsf x) (FloatOps.ofBits (F := Ideal) .f32 0x7F800000#32) = 1#1) :
    (x : EReal) ≠ ⊤ ∧ (x : EReal) ≠ ⊥ := by
  change Ideal.cmp .olt (max (x : EReal) (-(x : EReal))) (Ideal.ofBits .f32 0x7F800000#32) = 1#1 at e
  rw [inf_pattern] at e
  unfold Ideal.cmp at e
  induction x using EReal.rec with
  | bot => simp at e
  | coe r => exact ⟨EReal.coe_ne_top r, EReal.coe_ne_bot r⟩
  | top => simp at e

theorem label_of_test (a : BitVec 32)
    (e : IntOp.ori (IntOp.andi (IntOp.cmpi .sge a 0#32) (IntOp.cmpi .slt a 32000#32)) (IntOp.cmpi .eq a 4294967196#32) = 1#1) :
    a.toNat < 32000 ∨ a = 4294967196#32 := by
  rcases IntOp.ori_eq_one.1 e with e | e
  · left
    obtain ⟨e0, e1⟩ := IntOp.andi_eq_one.1 e
    have h0 : (0#32 : BitVec 32).toInt ≤ a.toInt := IntOp.cmpi_sge.1 e0
    have h1 : a.toInt < (32000#32 : BitVec 32).toInt := IntOp.cmpi_slt.1 e1
    have z0 : (0#32 : BitVec 32).toInt = 0 := by decide
    have z1 : (32000#32 : BitVec 32).toInt = 32000 := by decide
    rw [z0] at h0
    rw [z1] at h1
    have hs := BitVec.toInt_eq_toNat_cond a
    have hlt := a.isLt
    by_cases hc : 2 * a.toNat < 2 ^ 32
    · rw [if_pos hc] at hs; omega
    · rw [if_neg hc] at hs; omega
  · right
    exact IntOp.cmpi_eq.1 e

theorem of_pre (a0 : FVec Ideal Cert.Pre_finite_inputs.S8192x32000 .f32) (a1 : IVec Cert.Pre_finite_inputs.S8192 32)
    (a2 : FVec Ideal Cert.Pre_finite_inputs.S8192x512 .f32)
    (h : Cert.Pre_finite_inputs.fn (F := Ideal) a0 a1 a2 = fun _ => 1#1) :
    Cert.Spec.FinLogits a0 ∧ Cert.Spec.LabelOk a1 ∧ Cert.Spec.FinQuery a2 := by
  have h0 := congrFun h ix0
  dsimp only [Cert.Pre_finite_inputs.fn, Cert.Pre_finite_inputs.fn_part1] at h0
  obtain ⟨h01, hL⟩ := IntOp.andi_eq_one.1 h0
  obtain ⟨hX, hQ⟩ := IntOp.andi_eq_one.1 h01
  refine ⟨fun i => ?_, fun r => ?_, fun i => ?_⟩
  · exact real_of_abs_lt_inf (a0 i) (Host.reduce_andi_all _ _ _ _ _ hX i)
  · exact label_of_test (a1 (ix1 r)) (Host.reduce_andi_all _ _ _ _ _ hL (ix1 r))
  · exact real_of_abs_lt_inf (a2 i) (Host.reduce_andi_all _ _ _ _ _ hQ i)

end Cert.PreFacts

end
-- ==== Proof.lean ====
/- Streaming cross entropy plus the Frobenius norm of exp(-pairwise distance) equals the jnp reference, over the extended reals. -/
import proofs.«410698_j38302518346315_1_alg».proof.Defs
import proofs.«410698_j38302518346315_1_alg».proof.Proof.Gen.Kernel
import proofs.«410698_j38302518346315_1_alg».proof.Proof.Gen.KernelIdeal
import proofs.«410698_j38302518346315_1_alg».proof.Proof.Gen.ReferenceIdeal
import proofs.«410698_j38302518346315_1_alg».proof.Proof.Gen.Pre_finite_inputs
import proofs.«410698_j38302518346315_1_alg».proof.Proof.KRun
import proofs.«410698_j38302518346315_1_alg».proof.Proof.KVal
import proofs.«410698_j38302518346315_1_alg».proof.Proof.RefValue
import proofs.«410698_j38302518346315_1_alg».proof.Proof.PreFacts
import proofs.«410698_j38302518346315_1_alg».proof.Proof.Spec
import Idealize.ShloMosaic.Adequacy
import Idealize.ShloMosaic.Init

noncomputable section

namespace Cert.Proof

open Idealize.ShloMosaic Idealize.ShloMosaic.TcCoe Idealize.SL.Sem

variable {F : FTy → Type} [FloatOps F]

/-- Both programs have the same kernel bodies, label by label. -/
theorem defs₀_eq : Cert.Kernel.defs₀ (F := F) = Cert.KernelIdeal.defs₀ (F := F) := by
  unfold Cert.Kernel.defs₀ Cert.KernelIdeal.defs₀
  refine congrArg _ (funext fun ℓ => funext fun x => ?_)
  match ℓ, x with
  | 0, (t, s) => rfl
  | 1, (t, s) => rfl
  | ⟨_ + 2, h⟩, _ => exact absurd h (Nat.not_lt.2 (Nat.le_add_left _ _))

theorem defs_eq : Cert.Kernel.defs (F := F) = Cert.KernelIdeal.defs (F := F) :=
  congrArg (Pipeline.defs Cert.KernelIdeal.pcfgs) defs₀_eq

/-- So the idealized program's frame, which holds at every float family, is the word-level program's frame. -/
theorem frame_k : Cert.frame_Kernel := fun m ρ _ => by
  rw [defs_eq]; exact Cert.KernelIdeal.Run.frame (F := Bits) m ρ

theorem frame_ki : Cert.frame_KernelIdeal := fun m ρ _ => Cert.KernelIdeal.Run.frame m ρ

theorem frame_ri : Cert.frame_ReferenceIdeal := fun m ρ hpre =>
  (θ_run Cert.ReferenceIdeal.defs _ _).mono (fun _ h c => (h c).2)
    (Cert.ReferenceIdeal.RefValue.run_result m ρ
      (fun c => (Cert.PreFacts.of_pre _ _ _ (hpre c)).1) (fun c => (Cert.PreFacts.of_pre _ _ _ (hpre c)).2.1)
      (fun c => (Cert.PreFacts.of_pre _ _ _ (hpre c)).2.2))

theorem preserves : Cert.preserves_Kernel_KernelIdeal := trivial

theorem algebraic : Cert.algebraic_KernelIdeal_ReferenceIdeal := by
  intro m ρ m' ρ' hpre hagree
  have hp := fun c => Cert.PreFacts.of_pre _ _ _ (hpre c)
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Run.W7_result m c (hp c).1 (hp c).2.1 (hp c).2.2), (h c).2⟩)
      (Cert.KernelIdeal.Run.run_result (F := Ideal) m ρ)
  · have h0' : ∀ c : Dev Cert.ReferenceIdeal.nD, Cert.Spec.FinLogits (m' ((c.tc : Thread Cert.ReferenceIdeal.nD Cert.ReferenceIdeal.τ).loc Cert.ReferenceIdeal.main_arg0)) :=
      fun c => by rw [(hagree c).1]; exact (hp c).1
    have h1' : ∀ c : Dev Cert.ReferenceIdeal.nD, Cert.Spec.LabelOk (m' ((c.tc : Thread Cert.ReferenceIdeal.nD Cert.ReferenceIdeal.τ).loc Cert.ReferenceIdeal.main_arg1)) :=
      fun c => by rw [(hagree c).2.1]; exact (hp c).2.1
    have h2' : ∀ c : Dev Cert.ReferenceIdeal.nD, Cert.Spec.FinQuery (m' ((c.tc : Thread Cert.ReferenceIdeal.nD Cert.ReferenceIdeal.τ).loc Cert.ReferenceIdeal.main_arg2)) :=
      fun c => by rw [(hagree c).2.2]; exact (hp c).2.2
    refine (θ_run Cert.ReferenceIdeal.defs _ _).mono (fun _ h c => ⟨(h c).1.trans ?_, (h c).2⟩)
      (Cert.ReferenceIdeal.RefValue.run_result m' ρ' h0' h1' h2')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
